-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v16_0)) (v1 : (c : Dev Cert.KernelIdeal.nD) → Buf (Elt Ideal) ((c.tc : Thread Cert.KernelIdeal.nD Cert.KernelIdeal.τ).loc Cert.KernelIdeal.main_v16_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16_0) = v0 c
          ∧ r.2.mem ((c.tc : Thread Cert.KernelIdeal.nD Cert.KernelIdeal.τ).loc Cert.KernelIdeal.main_v16_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_v51) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x2048 : Shape := ⟨3, ![4, 4096, 2048]⟩
abbrev S1 : Shape := ⟨1, ![1]⟩
abbrev S_ : Shape := ⟨0, ![]⟩

class Facts : Prop where
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : FVec F S4x4096x2048 .f32) (main_arg1 : FVec F S4x4096x2048 .f32) (main_arg2 : FVec F S1 .f32) : IVec S_ 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_c : IVec S_ 1 := constantI S_ 1 1#1
  let main_v3 : IVec S_ 1 := (fun x v => Host.reduce IntOp.andi x v reducesTo_S4x4096x2048_S_d0_1_2 h_S_) main_v2 main_c
  let main_v4 : FVec F S4x4096x2048 .f32 := Host.absf main_arg1
  let main_cst_0 : FVec F S_ .f32 := constant S_ .f32 0x7F800000#32
  let main_v5 : FVec F S4x4096x2048 .f32 := broadcastInDim S4x4096x2048 ![] bcast_S_S4x4096x2048 main_cst_0
  let main_v6 : IVec S4x4096x2048 1 := cmpf .olt main_v4 main_v5
  let main_c_1 : IVec S_ 1 := constantI S_ 1 1#1
  let main_v7 : IVec S_ 1 := (fun x v => Host.reduce IntOp.andi x v reducesTo_S4x4096x2048_S_d0_1_2 h_S_) main_v6 main_c_1
  let main_v8 : IVec S_ 1 := andi main_v3 main_v7
  let main_v9 : FVec F S1 .f32 := Host.absf main_arg2
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  main_v13
-- ==== Kernel.lean ====
abbrev S4x4096x2048 : Shape := ⟨3, ![4, 4096, 2048]⟩
abbrev S1 : Shape := ⟨1, ![1]⟩
abbrev S4x1x2048 : Shape := ⟨3, ![4, 1, 2048]⟩
abbrev S1x512x2048 : Shape := ⟨3, ![1, 512, 2048]⟩
abbrev S1x1x2048 : Shape := ⟨3, ![1, 1, 2048]⟩
abbrev S1x2048 : Shape := ⟨2, ![1, 2048]⟩
abbrev S512x2048 : Shape := ⟨2, ![512, 2048]⟩
abbrev S2048 : Shape := ⟨1, ![2048]⟩
abbrev S_ : Shape := ⟨0, ![]⟩
abbrev S4x2048x2048 : Shape := ⟨3, ![4, 2048, 2048]⟩
abbrev S1x512x256 : Shape := ⟨3, ![1, 512, 256]⟩
abbrev S1x1x256 : Shape := ⟨3, ![1, 1, 256]⟩
abbrev S1x2048x256 : Shape := ⟨3, ![1, 2048, 256]⟩
abbrev S2048x2048 : Shape := ⟨2, ![2048, 2048]⟩
abbrev S2048x256 : Shape := ⟨2, ![2048, 256]⟩
abbrev S512x256 : Shape := ⟨2, ![512, 256]⟩
abbrev S1x256 : Shape := ⟨2, ![1, 256]⟩
abbrev S2048x1 : Shape := ⟨2, ![2048, 1]⟩
abbrev S256 : Shape := ⟨1, ![256]⟩
abbrev S1x2048x2048 : Shape := ⟨3, ![1, 2048, 2048]⟩
abbrev S1x1x512 : Shape := ⟨3, ![1, 1, 512]⟩
abbrev S1x512x512 : Shape := ⟨3, ![1, 512, 512]⟩
abbrev S1x2048x512 : Shape := ⟨3, ![1, 2048, 512]⟩
abbrev S2048x512 : Shape := ⟨2, ![2048, 512]⟩
abbrev S512x512 : Shape := ⟨2, ![512, 512]⟩
abbrev S1x512 : Shape := ⟨2, ![1, 512]⟩

abbrev nBuf : Space → Nat
  | .hbm => 31
  | .vmem => 41
  | .smem => 0
  | _ => 0

abbrev bufTy : (tb : Table) → Fin (tcTables nBuf tb) → BufTy
  | .hbm, ⟨0, _⟩ => ⟨S4x4096x2048, .f32⟩
  | .hbm, ⟨1, _⟩ => ⟨S4x4096x2048, .f32⟩
  | .hbm, ⟨2, _⟩ => ⟨S1, .f32⟩
  | .hbm, ⟨3, _⟩ => ⟨S4x1x2048, .f32⟩
  | .hbm, ⟨4, _⟩ => ⟨S4x1x2048, .f32⟩
  | .hbm, ⟨5, _⟩ => ⟨S4x1x2048, .f32⟩
  | .hbm, ⟨6, _⟩ => ⟨S4x1x2048, .f32⟩
  | .hbm, ⟨7, _⟩ => ⟨S_, .f32⟩
  | .hbm, ⟨8, _⟩ => ⟨S4x1x2048, .f32⟩
  | .hbm, ⟨9, _⟩ => ⟨S4x1x2048, .f32⟩
  | .hbm, ⟨10, _⟩ => ⟨S_, .f32⟩
  | .hbm, ⟨11, _⟩ => ⟨S4x1x2048, .f32⟩
  | .hbm, ⟨12, _⟩ => ⟨S4x1x2048, .f32⟩
  | .hbm, ⟨13, _⟩ => ⟨S4x1x2048, .f32⟩
  | .hbm, ⟨14, _⟩ => ⟨S4x1x2048, .f32⟩
  | .hbm, ⟨15, _⟩ => ⟨S_, .f32⟩
  | .hbm, ⟨16, _⟩ => ⟨S_, .f32⟩
  | .hbm, ⟨17, _⟩ => ⟨S4x1x2048, .f32⟩
  | .hbm, ⟨18, _⟩ => ⟨S4x1x2048, .f32⟩
  | .hbm, ⟨19, _⟩ => ⟨S_, .f32⟩
  | .hbm, ⟨20, _⟩ => ⟨S4x1x2048, .f32⟩
  | .hbm, ⟨21, _⟩ => ⟨S4x1x2048, .f32⟩
  | .hbm, ⟨22, _⟩ => ⟨S4x1x2048, .f32⟩
  | .hbm, ⟨23, _⟩ => ⟨S_, .f32⟩
  | .hbm, ⟨24, _⟩ => ⟨S4x1x2048, .f32⟩
  | .hbm, ⟨25, _⟩ => ⟨S4x1x2048, .f32⟩
  | .hbm, ⟨26, _⟩ => ⟨S4x1x2048, .f32⟩
  | .hbm, ⟨27, _⟩ => ⟨S4x1x2048, .f32⟩
  | .hbm, ⟨28, _⟩ => ⟨S4x2048x2048, .bf16⟩
  | .hbm, ⟨29, _⟩ => ⟨S4x4096x2048, .f32⟩
  | .hbm, ⟨30, _⟩ => ⟨S4x4096x2048, .f32⟩
  | .local _ .vmem, ⟨0, _⟩ => ⟨S1x512x2048, .f32⟩
  | .local _ .vmem, ⟨1, _⟩ => ⟨S1x512x2048, .f32⟩
  | .local _ .vmem, ⟨2, _⟩ => ⟨S1x512x2048, .f32⟩
  | .local _ .vmem, ⟨3, _⟩ => ⟨S1x512x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x1x2048, .f32⟩
  | .local _ .vmem, ⟨9, _⟩ => ⟨S1x1x2048, .f32⟩
  | .local _ .vmem, ⟨10, _⟩ => ⟨S1x1x2048, .f32⟩
  | .local _ .vmem, ⟨11, _⟩ => ⟨S1x1x2048, .f32⟩
  | .local _ .vmem, ⟨12, _⟩ => ⟨S1x512x2048, .f32⟩
  | .local _ .vmem, ⟨13, _⟩ => ⟨S1x512x2048, .f32⟩
  | .local _ .vmem, ⟨14, _⟩ => ⟨S1x512x256, .f32⟩
  | .local _ .vmem, ⟨15, _⟩ => ⟨S1x512x256, .f32⟩
  | .local _ .vmem, ⟨16, _⟩ => ⟨S1x1x2048, .f32⟩
  | .local _ .vmem, ⟨17, _⟩ => ⟨S1x1x2048, .f32⟩
  | .local _ .vmem, ⟨18, _⟩ => ⟨S1x1x2048, .f32⟩
  | .local _ .vmem, ⟨19, _⟩ => ⟨S1x1x2048, .f32⟩
  | .local _ .vmem, ⟨20, _⟩ => ⟨S1x1x256, .f32⟩
  | .local _ .vmem, ⟨21, _⟩ => ⟨S1x1x256, .f32⟩
  | .local _ .vmem, ⟨22, _⟩ => ⟨S1x1x256, .f32⟩
  | .local _ .vmem, ⟨23, _⟩ => ⟨S1x1x256, .f32⟩
  | .local _ .vmem, ⟨24, _⟩ => ⟨S1x1x256, .f32⟩
  | .local _ .vmem, ⟨25, _⟩ => ⟨S1x1x256, .f32⟩
  | .local _ .vmem, ⟨26, _⟩ => ⟨S1x2048x256, .bf16⟩
  | .local _ .vmem, ⟨27, _⟩ => ⟨S1x2048x256, .bf16⟩
  | .local _ .vmem, ⟨28, _⟩ => ⟨S2048x2048, .f32⟩
  | .local _ .vmem, ⟨29, _⟩ => ⟨S1x512x2048, .f32⟩
  | .local _ .vmem, ⟨30, _⟩ => ⟨S1x512x2048, .f32⟩
  | .local _ .vmem, ⟨31, _⟩ => ⟨S1x2048x2048, .bf16⟩
  | .local _ .vmem, ⟨32, _⟩ => ⟨S1x2048x2048, .bf16⟩
  | .local _ .vmem, ⟨33, _⟩ => ⟨S1x1x512, .f32⟩
  | .local _ .vmem, ⟨34, _⟩ => ⟨S1x1x512, .f32⟩
  | .local _ .vmem, ⟨35, _⟩ => ⟨S1x1x512, .f32⟩
  | .local _ .vmem, ⟨36, _⟩ => ⟨S1x1x512, .f32⟩
  | .local _ .vmem, ⟨37, _⟩ => ⟨S1x512x512, .f32⟩
  | .local _ .vmem, ⟨38, _⟩ => ⟨S1x512x512, .f32⟩
  | .local _ .vmem, ⟨39, _⟩ => ⟨S1x512x512, .f32⟩
  | .local _ .vmem, ⟨40, _⟩ => ⟨S1x512x512, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16_0 : Ref sig .tc := ⟨.hbm, 29, rfl⟩
abbrev main_v16_1 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc1_stg6_0 : Ref sig .tc := ⟨.vmem, 24, rfl⟩
abbrev cc1_stg6_1 : Ref sig .tc := ⟨.vmem, 25, rfl⟩
abbrev cc1_stg7_0 : Ref sig .tc := ⟨.vmem, 26, rfl⟩
abbrev cc1_stg7_1 : Ref sig .tc := ⟨.vmem, 27, rfl⟩
abbrev cc1_scratch0 : Ref sig .tc := ⟨.vmem, 28, rfl⟩
abbrev cc2_stg0_0 : Ref sig .tc := ⟨.vmem, 29, rfl⟩
abbrev cc2_stg0_1 : Ref sig .tc := ⟨.vmem, 30, rfl⟩
abbrev cc2_stg1_0 : Ref sig .tc := ⟨.vmem, 31, rfl⟩
abbrev cc2_stg1_1 : Ref sig .tc := ⟨.vmem, 32, rfl⟩
abbrev cc2_stg2_0 : Ref sig .tc := ⟨.vmem, 33, rfl⟩
abbrev cc2_stg2_1 : Ref sig .tc := ⟨.vmem, 34, rfl⟩
abbrev cc2_stg3_0 : Ref sig .tc := ⟨.vmem, 35, rfl⟩
abbrev cc2_stg3_1 : Ref sig .tc := ⟨.vmem, 36, rfl⟩
abbrev cc2_stg4_0 : Ref sig .tc := ⟨.vmem, 37, rfl⟩
abbrev cc2_stg4_1 : Ref sig .tc := ⟨.vmem, 38, rfl⟩
abbrev cc2_stg5_0 : Ref sig .tc := ⟨.vmem, 39, rfl⟩
abbrev cc2_stg5_1 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc1_sem6_0 : DmaSem sig := 24
abbrev cc1_sem6_1 : DmaSem sig := 25
abbrev cc1_sem7_0 : DmaSem sig := 26
abbrev cc1_sem7_1 : DmaSem sig := 27
abbrev cc2_sem0_0 : DmaSem sig := 28
abbrev cc2_sem0_1 : DmaSem sig := 29
abbrev cc2_sem1_0 : DmaSem sig := 30
abbrev cc2_sem1_1 : DmaSem sig := 31
abbrev cc2_sem2_0 : DmaSem sig := 32
abbrev cc2_sem2_1 : DmaSem sig := 33
abbrev cc2_sem3_0 : DmaSem sig := 34
abbrev cc2_sem3_1 : DmaSem sig := 35
abbrev cc2_sem4_0 : DmaSem sig := 36
abbrev cc2_sem4_1 : DmaSem sig := 37
abbrev cc2_sem5_0 : DmaSem sig := 38
abbrev cc2_sem5_1 : DmaSem sig := 39

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨3, ![4, 8, 8], ![false, false, false]⟩

def k1_mult1 (i : grid1.Coords) : BitVec 32 :=
  let arg2 : BitVec 32 := BitVec.ofNat 32 (i 2).val
  let c256_i32 : BitVec 32 := 256#32
  let v0 : BitVec 32 := Scalar.muli arg2 c256_i32
  v0
def k1_cond1 (i : grid1.Coords) : BitVec 1 :=
  let arg1 : BitVec 32 := BitVec.ofNat 32 (i 1).val
  let c0_i32 : BitVec 32 := 0#32
  let v2 : BitVec 1 := Scalar.cmpi .eq arg1 c0_i32
  let v3 : BitVec 32 := Scalar.extui v2
  let c0_i32_0 : BitVec 32 := 0#32
  let v4 : BitVec 1 := Scalar.cmpi .ne v3 c0_i32_0
  v4

def k1_off1 (i : grid1.Coords) : Fin 2 → Nat :=
  let c0_10 : Index := 0#32
  let arg2 : BitVec 32 := BitVec.ofNat 32 (i 2).val
  let c256_i32 : BitVec 32 := 256#32
  let v0 : BitVec 32 := Scalar.muli arg2 c256_i32
  let v1 : BitVec 32 := v0
  let v23 : Index := Scalar.indexCast v1
  ![0, v23.toNat]
def k1_off2 (i : grid1.Coords) : Fin 2 → Nat :=
  let c0_6 : Index := 0#32
  let arg2 : BitVec 32 := BitVec.ofNat 32 (i 2).val
  let c256_i32 : BitVec 32 := 256#32
  let v0 : BitVec 32 := Scalar.muli arg2 c256_i32
  let v1 : BitVec 32 := v0
  let v12 : Index := Scalar.indexCast v1
  ![0, v12.toNat]
def k1_cond2 (i : grid1.Coords) : BitVec 1 :=
  let arg1 : BitVec 32 := BitVec.ofNat 32 (i 1).val
  let c7_i32 : BitVec 32 := 7#32
  let v19 : BitVec 1 := Scalar.cmpi .eq arg1 c7_i32
  let v20 : BitVec 32 := Scalar.extui v19
  let c0_i32_8 : BitVec 32 := 0#32
  let v21 : BitVec 1 := Scalar.cmpi .ne v20 c0_i32_8
  v21

def k1_off3 (i : grid1.Coords) : Fin 2 → Nat :=
  let c0_9 : Index := 0#32
  let arg2 : BitVec 32 := BitVec.ofNat 32 (i 2).val
  let c256_i32 : BitVec 32 := 256#32
  let v0 : BitVec 32 := Scalar.muli arg2 c256_i32
  let v1 : BitVec 32 := v0
  let v22 : Index := Scalar.indexCast v1
  ![0, v22.toNat]
def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc1_transform_5 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc1_transform_6 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc1_transform_7 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 1 := Scalar.cmpi .eq arg1 c7_i32
  let c0_i32 : BitVec 32 := 0#32
  let v1 : BitVec 32 := Scalar.select v0 arg2 c0_i32
  let c0_i32_0 : BitVec 32 := 0#32
  let c0_i32_1 : BitVec 32 := 0#32
  ![arg0.toNat, c0_i32_0.toNat, v1.toNat]

abbrev stage1_0 : Fin 2 → Memref sig .tc .vmem S1x512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x512x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true]

abbrev stage1_2 : Fin 2 → Memref sig .tc .vmem S1x1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, false]

abbrev stage1_3 : Fin 2 → Memref sig .tc .vmem S1x1x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false, false]

abbrev stage1_4 : Fin 2 → Memref sig .tc .vmem S1x1x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false, true]

abbrev stage1_5 : Fin 2 → Memref sig .tc .vmem S1x1x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false, true]

abbrev stage1_6 : Fin 2 → Memref sig .tc .vmem S1x1x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false, true]

abbrev stage1_7 : Fin 2 → Memref sig .tc .vmem S1x2048x256 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true, true]

abbrev grid2 : Pipeline.Grid := ⟨3, ![4, 8, 4], ![false, false, false]⟩

def k2_mult1 (i : grid2.Coords) : BitVec 32 :=
  let arg2 : BitVec 32 := BitVec.ofNat 32 (i 2).val
  let c512_i32 : BitVec 32 := 512#32
  let v0 : BitVec 32 := Scalar.muli arg2 c512_i32
  v0
def k2_off1 (i : grid2.Coords) : Fin 3 → Nat :=
  let c0_2 : Index := 0#32
  let c0_3 : Index := 0#32
  let arg2 : BitVec 32 := BitVec.ofNat 32 (i 2).val
  let c512_i32 : BitVec 32 := 512#32
  let v0 : BitVec 32 := Scalar.muli arg2 c512_i32
  let v1 : BitVec 32 := v0
  let v5 : Index := Scalar.indexCast v1
  ![0, 0, v5.toNat]
def cc2_transform_0 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc2_transform_3 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc2_transform_4 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc2_transform_5 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage2_0 : Fin 2 → Memref sig .tc .vmem S1x512x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true, false]

abbrev stage2_1 : Fin 2 → Memref sig .tc .vmem S1x2048x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false, false]

abbrev stage2_2 : Fin 2 → Memref sig .tc .vmem S1x1x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false, true]

abbrev stage2_3 : Fin 2 → Memref sig .tc .vmem S1x1x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false, true]

abbrev stage2_4 : Fin 2 → Memref sig .tc .vmem S1x512x512 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true, true]

abbrev stage2_5 : Fin 2 → Memref sig .tc .vmem S1x512x512 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true, true]

class Facts₀ : Prop where
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  shapeCasts_S1x2048_S1x1x2048 : S1x2048.ShapeCasts S1x1x2048
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  reduces_S512x2048_S2048 : S512x2048.Reduces [0] S2048
  shapeCasts_S2048_S1x2048 : S2048.ShapeCasts S1x2048
  bcast_S_S4x1x2048 : S_.BroadcastsInDim S4x1x2048 (![] : Fin 0 → Fin S4x1x2048.rank)
  h_S2048x256 : 0 < S2048x256.numel
  shapeCasts_S2048x256_S2048x256 : S2048x256.ShapeCasts S2048x256
  bitsLt_bf16_f32 : FTy.bits .bf16 < FTy.bits .f32
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  transposes_S1x2048_p1_0_S2048x1 : S1x2048.Transposes [1, 0] S2048x1
  broadcasts_S1x256_S2048x256 : S1x256.Broadcasts S2048x256
  broadcasts_S2048x1_S2048x256 : S2048x1.Broadcasts S2048x256
  reduces_S2048x256_S256 : S2048x256.Reduces [0] S256
  shapeCasts_S256_S1x256 : S256.ShapeCasts S1x256
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  shapeCasts_S2048x256_S1x2048x256 : S2048x256.ShapeCasts S1x2048x256
  packedbf16_S1x2048x256_S1x2048x256_0_0_0 : (Rect.unit (s := S1x2048x256) ![0, 0, 0] S1x2048x256.size inb_S1x2048x256_S1x2048x256_0_0_0).PackedRows (EltTy.packing .bf16)
  h_S1x2048x512 : 0 < S1x2048x512.numel
  shapeCasts_S1x2048x512_S2048x512 : S1x2048x512.ShapeCasts S2048x512
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  broadcasts_S1x512_S512x512 : S1x512.Broadcasts S512x512
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  shapeCasts_S512x512_S1x512x512 : S512x512.ShapeCasts S1x512x512
  dot_S512x2048_S512x256_S2048x256_0_0_1_1_n_n_wf : DotDims.WF S512x2048 S512x256 S2048x256 [0] [0] [1] [1] [] []
  dot_S512x2048_S2048x512_S512x512_1_0_0_1_n_n_wf : DotDims.WF S512x2048 S2048x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2048.size a ≤ S4x4096x2048.size a
  hwx0_0 : ∀ i : grid0.Coords, EltTy.bits .f32 = 32 ∨ (Rect.block (s := S4x4096x2048) S1x512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x2048.size a ≤ S4x4096x2048.size a
  hwx0_1 : ∀ i : grid0.Coords, EltTy.bits .f32 = 32 ∨ (Rect.block (s := S4x4096x2048) S1x512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048.size a ≤ S4x1x2048.size a
  hwx0_2 : ∀ i : grid0.Coords, EltTy.bits .f32 = 32 ∨ (Rect.block (s := S4x1x2048) S1x1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x2048.size a ≤ S4x1x2048.size a
  hwx0_3 : ∀ i : grid0.Coords, EltTy.bits .f32 = 32 ∨ (Rect.block (s := S4x1x2048) S1x1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x2048.size a ≤ S4x1x2048.size a
  hwx0_4 : ∀ i : grid0.Coords, EltTy.bits .f32 = 32 ∨ (Rect.block (s := S4x1x2048) S1x1x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x2048.size a ≤ S4x1x2048.size a
  hwx0_5 : ∀ i : grid0.Coords, EltTy.bits .f32 = 32 ∨ (Rect.block (s := S4x1x2048) S1x1x2048.size (cc0_transform_5 i) (hinb0_5 i)).WholeWords (EltTy.packing .f32)
  hrank1 : 0 < grid1.rank
  k1_mult1_dvd : ∀ i : grid1.Coords, 256 ∣ (k1_mult1 i).toNat
  k1_off1_inb : ∀ i : grid1.Coords, ∀ (k1_h1 : k1_cond1 i = 1#1), ∀ a, (k1_off1 i) a + S2048x256.size a ≤ S2048x2048.size a
  k1_off2_inb : ∀ i : grid1.Coords, ∀ a, (k1_off2 i) a + S2048x256.size a ≤ S2048x2048.size a
  k1_off3_inb : ∀ i : grid1.Coords, ∀ (k1_h2 : k1_cond2 i = 1#1), ∀ a, (k1_off3 i) a + S2048x256.size a ≤ S2048x2048.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x2048.size a ≤ S4x4096x2048.size a
  hwx1_0 : ∀ i : grid1.Coords, EltTy.bits .f32 = 32 ∨ (Rect.block (s := S4x4096x2048) S1x512x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x256.size a ≤ S4x4096x2048.size a
  hwx1_1 : ∀ i : grid1.Coords, EltTy.bits .f32 = 32 ∨ (Rect.block (s := S4x4096x2048) S1x512x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x2048.size a ≤ S4x1x2048.size a
  hwx1_2 : ∀ i : grid1.Coords, EltTy.bits .f32 = 32 ∨ (Rect.block (s := S4x1x2048) S1x1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x2048.size a ≤ S4x1x2048.size a
  hwx1_3 : ∀ i : grid1.Coords, EltTy.bits .f32 = 32 ∨ (Rect.block (s := S4x1x2048) S1x1x2048.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1x256.size a ≤ S4x1x2048.size a
  hwx1_4 : ∀ i : grid1.Coords, EltTy.bits .f32 = 32 ∨ (Rect.block (s := S4x1x2048) S1x1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1x256.size a ≤ S4x1x2048.size a
  hwx1_5 : ∀ i : grid1.Coords, EltTy.bits .f32 = 32 ∨ (Rect.block (s := S4x1x2048) S1x1x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x1x256.size a ≤ S4x1x2048.size a
  hwx1_6 : ∀ i : grid1.Coords, EltTy.bits .f32 = 32 ∨ (Rect.block (s := S4x1x2048) S1x1x256.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x2048x256.size a ≤ S4x2048x2048.size a
  hwx1_7 : ∀ i : grid1.Coords, EltTy.bits .bf16 = 32 ∨ (Rect.block (s := S4x2048x2048) S1x2048x256.size (cc1_transform_7 i) (hinb1_7 i)).WholeWords (EltTy.packing .bf16)
  hrank2 : 0 < grid2.rank
  k2_mult1_dvd : ∀ i : grid2.Coords, 512 ∣ (k2_mult1 i).toNat
  k2_off1_inb : ∀ i : grid2.Coords, ∀ a, (k2_off1 i) a + S1x2048x512.size a ≤ S1x2048x2048.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x512x2048.size a ≤ S4x4096x2048.size a
  hwx2_0 : ∀ i : grid2.Coords, EltTy.bits .f32 = 32 ∨ (Rect.block (s := S4x4096x2048) S1x512x2048.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x2048x2048.size a ≤ S4x2048x2048.size a
  hwx2_1 : ∀ i : grid2.Coords, EltTy.bits .bf16 = 32 ∨ (Rect.block (s := S4x2048x2048) S1x2048x2048.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1x512.size a ≤ S4x1x2048.size a
  hwx2_2 : ∀ i : grid2.Coords, EltTy.bits .f32 = 32 ∨ (Rect.block (s := S4x1x2048) S1x1x512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x1x512.size a ≤ S4x1x2048.size a
  hwx2_3 : ∀ i : grid2.Coords, EltTy.bits .f32 = 32 ∨ (Rect.block (s := S4x1x2048) S1x1x512.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x512x512.size a ≤ S4x4096x2048.size a
  hwx2_4 : ∀ i : grid2.Coords, EltTy.bits .f32 = 32 ∨ (Rect.block (s := S4x4096x2048) S1x512x512.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1x512x512.size a ≤ S4x4096x2048.size a
  hwx2_5 : ∀ i : grid2.Coords, EltTy.bits .f32 = 32 ∨ (Rect.block (s := S4x4096x2048) S1x512x512.size (cc2_transform_5 i) (hinb2_5 i)).WholeWords (EltTy.packing .f32)

variable [Facts₀]

def dot_S512x2048_S512x256_S2048x256_0_0_1_1_n_n : DotDims S512x2048 S512x256 S2048x256 where
  lhsContracting := [0]
  rhsContracting := [0]
  lhsNonContracting := [1]
  rhsNonContracting := [1]
  lhsBatch := []
  rhsBatch := []
  wf := dot_S512x2048_S512x256_S2048x256_0_0_1_1_n_n_wf
def dot_S512x2048_S2048x512_S512x512_1_0_0_1_n_n : DotDims S512x2048 S2048x512 S512x512 where
  lhsContracting := [1]
  rhsContracting := [0]
  lhsNonContracting := [0]
  rhsNonContracting := [1]
  lhsBatch := []
  rhsBatch := []
  wf := dot_S512x2048_S2048x512_S512x512_1_0_0_1_n_n_wf

abbrev win0_0 : Pipeline.Window sig grid0 :=
  Pipeline.Window.ofSpec (Memref.whole main_arg0) S1x512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1x2048.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x2048.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S1x1x2048.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_3) S1x1x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S1x512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1x512x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0_1) S1x1x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v0_0) S1x1x2048.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v2) S1x1x256.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v12) S1x1x256.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v14) S1x1x256.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v15) S1x2048x256.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev idle1 : Fin 8 → grid1.Coords → Bool := fun | 0 => fun _ => false | 1 => fun _ => false | 2 => fun _ => false | 3 => fun _ => false | 4 => fun _ => false | 5 => fun _ => false | 6 => fun _ => false | 7 => fun i => !(k1_cond2 i == 1#1) | ⟨_ + 8, h⟩ => absurd h (Nat.not_lt.2 (Nat.le_add_left _ _))

abbrev win2_0 : Pipeline.Window sig grid2 :=
  Pipeline.Window.ofSpec (Memref.whole main_arg0) S1x512x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S1x2048x2048.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v2) S1x1x512.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v12) S1x1x512.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v16_0) S1x512x512.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v16_1) S1x512x512.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S4x4096x2048 : Shape := ⟨3, ![4, 4096, 2048]⟩
abbrev S1 : Shape := ⟨1, ![1]⟩
abbrev S_ : Shape := ⟨0, ![]⟩
abbrev S4x2048 : Shape := ⟨2, ![4, 2048]⟩
abbrev S4x1x2048 : Shape := ⟨3, ![4, 1, 2048]⟩
abbrev S4x2048x2048 : Shape := ⟨3, ![4, 2048, 2048]⟩
abbrev S4x2048x1 : Shape := ⟨3, ![4, 2048, 1]⟩

abbrev nBuf : Space → Nat
  | .hbm => 94
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x4096x2048, .f32⟩
  | .hbm, ⟨2, _⟩ => ⟨S1, .f32⟩
  | .hbm, ⟨3, _⟩ => ⟨S1, .f32⟩
  | .hbm, ⟨4, _⟩ => ⟨S_, .f32⟩
  | .hbm, ⟨5, _⟩ => ⟨S4x2048, .f32⟩
  | .hbm, ⟨6, _⟩ => ⟨S4x1x2048, .f32⟩
  | .hbm, ⟨7, _⟩ => ⟨S_, .f32⟩
  | .hbm, ⟨8, _⟩ => ⟨S4x1x2048, .f32⟩
  | .hbm, ⟨9, _⟩ => ⟨S4x1x2048, .f32⟩
  | .hbm, ⟨10, _⟩ => ⟨S_, .i32⟩
  | .hbm, ⟨11, _⟩ => ⟨S_, .f32⟩
  | .hbm, ⟨12, _⟩ => ⟨S4x2048, .f32⟩
  | .hbm, ⟨13, _⟩ => ⟨S4x1x2048, .f32⟩
  | .hbm, ⟨14, _⟩ => ⟨S_, .f32⟩
  | .hbm, ⟨15, _⟩ => ⟨S4x1x2048, .f32⟩
  | .hbm, ⟨16, _⟩ => ⟨S4x1x2048, .f32⟩
  | .hbm, ⟨17, _⟩ => ⟨S4x4096x2048, .f32⟩
  | .hbm, ⟨18, _⟩ => ⟨S4x4096x2048, .f32⟩
  | .hbm, ⟨19, _⟩ => ⟨S4x4096x2048, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S4x2048, .f32⟩
  | .hbm, ⟨25, _⟩ => ⟨S4x1x2048, .f32⟩
  | .hbm, ⟨26, _⟩ => ⟨S4x1x2048, .f32⟩
  | .hbm, ⟨27, _⟩ => ⟨S4x1x2048, .f32⟩
  | .hbm, ⟨28, _⟩ => ⟨S_, .f32⟩
  | .hbm, ⟨29, _⟩ => ⟨S_, .i1⟩
  | .hbm, ⟨30, _⟩ => ⟨S_, .f32⟩
  | .hbm, ⟨31, _⟩ => ⟨S_, .f32⟩
  | .hbm, ⟨32, _⟩ => ⟨S4x1x2048, .f32⟩
  | .hbm, ⟨33, _⟩ => ⟨S4x1x2048, .f32⟩
  | .hbm, ⟨34, _⟩ => ⟨S4x1x2048, .f32⟩
  | .hbm, ⟨35, _⟩ => ⟨S_, .f32⟩
  | .hbm, ⟨36, _⟩ => ⟨S4x1x2048, .f32⟩
  | .hbm, ⟨37, _⟩ => ⟨S4x1x2048, .f32⟩
  | .hbm, ⟨38, _⟩ => ⟨S4x4096x2048, .f32⟩
  | .hbm, ⟨39, _⟩ => ⟨S4x4096x2048, .f32⟩
  | .hbm, ⟨40, _⟩ => ⟨S4x4096x2048, .f32⟩
  | .hbm, ⟨41, _⟩ => ⟨S4x4096x2048, .f32⟩
  | .hbm, ⟨42, _⟩ => ⟨S4x4096x2048, .f32⟩
  | .hbm, ⟨43, _⟩ => ⟨S_, .f32⟩
  | .hbm, ⟨44, _⟩ => ⟨S4x2048, .f32⟩
  | .hbm, ⟨45, _⟩ => ⟨S4x4096x2048, .f32⟩
  | .hbm, ⟨46, _⟩ => ⟨S_, .f32⟩
  | .hbm, ⟨47, _⟩ => ⟨S4x2048, .f32⟩
  | .hbm, ⟨48, _⟩ => ⟨S4x2048x2048, .f32⟩
  | .hbm, ⟨49, _⟩ => ⟨S4x2048x1, .f32⟩
  | .hbm, ⟨50, _⟩ => ⟨S4x1x2048, .f32⟩
  | .hbm, ⟨51, _⟩ => ⟨S4x2048x2048, .f32⟩
  | .hbm, ⟨52, _⟩ => ⟨S4x2048x2048, .f32⟩
  | .hbm, ⟨53, _⟩ => ⟨S4x2048x2048, .f32⟩
  | .hbm, ⟨54, _⟩ => ⟨S_, .f32⟩
  | .hbm, ⟨55, _⟩ => ⟨S4x2048x2048, .f32⟩
  | .hbm, ⟨56, _⟩ => ⟨S4x2048x2048, .f32⟩
  | .hbm, ⟨57, _⟩ => ⟨S4x2048x2048, .f32⟩
  | .hbm, ⟨58, _⟩ => ⟨S_, .f32⟩
  | .hbm, ⟨59, _⟩ => ⟨S_, .f32⟩
  | .hbm, ⟨60, _⟩ => ⟨S4x2048x2048, .f32⟩
  | .hbm, ⟨61, _⟩ => ⟨S4x2048x2048, .f32⟩
  | .hbm, ⟨62, _⟩ => ⟨S4x2048x2048, .f32⟩
  | .hbm, ⟨63, _⟩ => ⟨S4x2048x2048, .f32⟩
  | .hbm, ⟨64, _⟩ => ⟨S_, .f32⟩
  | .hbm, ⟨65, _⟩ => ⟨S4x2048, .f32⟩
  | .hbm, ⟨66, _⟩ => ⟨S_, .f32⟩
  | .hbm, ⟨67, _⟩ => ⟨S4x2048, .f32⟩
  | .hbm, ⟨68, _⟩ => ⟨S4x2048, .f32⟩
  | .hbm, ⟨69, _⟩ => ⟨S4x1x2048, .f32⟩
  | .hbm, ⟨70, _⟩ => ⟨S4x2048x2048, .f32⟩
  | .hbm, ⟨71, _⟩ => ⟨S4x2048x2048, .f32⟩
  | .hbm, ⟨72, _⟩ => ⟨S4x2048x2048, .f32⟩
  | .hbm, ⟨73, _⟩ => ⟨S_, .f32⟩
  | .hbm, ⟨74, _⟩ => ⟨S4x2048, .f32⟩
  | .hbm, ⟨75, _⟩ => ⟨S4x1x2048, .f32⟩
  | .hbm, ⟨76, _⟩ => ⟨S4x2048x2048, .f32⟩
  | .hbm, ⟨77, _⟩ => ⟨S4x2048x2048, .f32⟩
  | .hbm, ⟨78, _⟩ => ⟨S4x4096x2048, .f32⟩
  | .hbm, ⟨79, _⟩ => ⟨S4x4096x2048, .f32⟩
  | .hbm, ⟨80, _⟩ => ⟨S4x4096x2048, .f32⟩
  | .hbm, ⟨81, _⟩ => ⟨S4x4096x2048, .f32⟩
  | .hbm, ⟨82, _⟩ => ⟨S4x4096x2048, .f32⟩
  | .hbm, ⟨83, _⟩ => ⟨S4x4096x2048, .f32⟩
  | .hbm, ⟨84, _⟩ => ⟨S4x4096x2048, .f32⟩
  | .hbm, ⟨85, _⟩ => ⟨S4x4096x2048, .f32⟩
  | .hbm, ⟨86, _⟩ => ⟨S4x4096x2048, .f32⟩
  | .hbm, ⟨87, _⟩ => ⟨S_, .f32⟩
  | .hbm, ⟨88, _⟩ => ⟨S_, .f32⟩
  | .hbm, ⟨89, _⟩ => ⟨S4x4096x2048, .f32⟩
  | .hbm, ⟨90, _⟩ => ⟨S4x4096x2048, .f32⟩
  | .hbm, ⟨91, _⟩ => ⟨S4x4096x2048, .f32⟩
  | .hbm, ⟨92, _⟩ => ⟨S4x4096x2048, .f32⟩
  | .hbm, ⟨93, _⟩ => ⟨S4x4096x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_call0_call0_cst : Ref sig .tc := ⟨.hbm, 11, rfl⟩
abbrev main_call0_call0_v0 : Ref sig .tc := ⟨.hbm, 12, rfl⟩
abbrev main_call0_call0_v1 : Ref sig .tc := ⟨.hbm, 13, rfl⟩
abbrev main_call0_call0_cst_0 : Ref sig .tc := ⟨.hbm, 14, rfl⟩
abbrev main_call0_call0_v2 : Ref sig .tc := ⟨.hbm, 15, rfl⟩
abbrev main_call0_call0_v3 : Ref sig .tc := ⟨.hbm, 16, rfl⟩
abbrev main_call0_call0_v4 : Ref sig .tc := ⟨.hbm, 17, rfl⟩
abbrev main_call0_call0_v5 : Ref sig .tc := ⟨.hbm, 18, rfl⟩
abbrev main_call0_call0_v6 : Ref sig .tc := ⟨.hbm, 19, rfl⟩
abbrev main_call0_call0_v7 : Ref sig .tc := ⟨.hbm, 20, rfl⟩
abbrev main_call0_call0_cst_1 : Ref sig .tc := ⟨.hbm, 21, rfl⟩
abbrev main_call0_call0_v8 : Ref sig .tc := ⟨.hbm, 22, rfl⟩
abbrev main_call0_call0_cst_2 : Ref sig .tc := ⟨.hbm, 23, rfl⟩
abbrev main_call0_call0_v9 : Ref sig .tc := ⟨.hbm, 24, rfl⟩
abbrev main_call0_call0_v10 : Ref sig .tc := ⟨.hbm, 25, rfl⟩
abbrev main_call0_call0_v11 : Ref sig .tc := ⟨.hbm, 26, rfl⟩
abbrev main_call0_call0_v12 : Ref sig .tc := ⟨.hbm, 27, rfl⟩
abbrev main_call0_call0_cst_3 : Ref sig .tc := ⟨.hbm, 28, rfl⟩
abbrev main_call0_call0_v13 : Ref sig .tc := ⟨.hbm, 29, rfl⟩
abbrev main_call0_call0_cst_4 : Ref sig .tc := ⟨.hbm, 30, rfl⟩
abbrev main_call0_call0_call0_v0 : Ref sig .tc := ⟨.hbm, 31, rfl⟩
abbrev main_call0_call0_call0_v1 : Ref sig .tc := ⟨.hbm, 32, rfl⟩
abbrev main_call0_v0 : Ref sig .tc := ⟨.hbm, 33, rfl⟩
abbrev main_v5 : Ref sig .tc := ⟨.hbm, 34, rfl⟩
abbrev main_cst_1 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_cst_2 : Ref sig .tc := ⟨.hbm, 43, rfl⟩
abbrev main_v13 : Ref sig .tc := ⟨.hbm, 44, rfl⟩
abbrev main_v14 : Ref sig .tc := ⟨.hbm, 45, rfl⟩
abbrev main_cst_3 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_cst_4 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_cst_5 : Ref sig .tc := ⟨.hbm, 58, rfl⟩
abbrev main_call1_v0 : Ref sig .tc := ⟨.hbm, 59, rfl⟩
abbrev main_call1_v1 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_cst_6 : Ref sig .tc := ⟨.hbm, 64, rfl⟩
abbrev main_v28 : Ref sig .tc := ⟨.hbm, 65, rfl⟩
abbrev main_cst_7 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_cst_8 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_cst_9 : Ref sig .tc := ⟨.hbm, 87, rfl⟩
abbrev main_call2_v0 : Ref sig .tc := ⟨.hbm, 88, rfl⟩
abbrev main_call2_v1 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩

abbrev nD : Nat := 1
abbrev τ : Topo := Topo.v7x

variable {F : FTy → Type} [FloatOps F]

class Facts₀ : Prop where
  reducesTo_S4x4096x2048_S4x2048_d1 : S4x4096x2048.ReducesTo [1] S4x2048
  h_S_ : 0 < S_.numel
  bcast_S4x2048_S4x1x2048_0_2 : S4x2048.BroadcastsInDim S4x1x2048 (![0, 2] : Fin 2 → Fin S4x1x2048.rank)
  bcast_S_S4x1x2048 : S_.BroadcastsInDim S4x1x2048 (![] : Fin 0 → Fin S4x1x2048.rank)
  bcast_S4x1x2048_S4x4096x2048_0_1_2 : S4x1x2048.BroadcastsInDim S4x4096x2048 (![0, 1, 2] : Fin 3 → Fin S4x4096x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  bcast_S4x1x2048_S4x2048x2048_0_1_2 : S4x1x2048.BroadcastsInDim S4x2048x2048 (![0, 1, 2] : Fin 3 → Fin S4x2048x2048.rank)
  bcast_S_S4x2048x2048 : S_.BroadcastsInDim S4x2048x2048 (![] : Fin 0 → Fin S4x2048x2048.rank)
  reducesTo_S4x2048x2048_S4x2048_d1 : S4x2048x2048.ReducesTo [1] S4x2048
  bcast_S_S4x2048 : S_.BroadcastsInDim S4x2048 (![] : Fin 0 → Fin S4x2048.rank)
  bcast_S_S4x4096x2048 : S_.BroadcastsInDim S4x4096x2048 (![] : Fin 0 → Fin S4x4096x2048.rank)
  dot_S4x4096x2048_S4x4096x2048_S4x2048x2048_1_1_2_2_0_0_wf : DotDims.WF S4x4096x2048 S4x4096x2048 S4x2048x2048 [1] [1] [2] [2] [0] [0]
  dot_S4x4096x2048_S4x2048x2048_S4x4096x2048_2_1_1_2_0_0_wf : DotDims.WF S4x4096x2048 S4x2048x2048 S4x4096x2048 [2] [1] [1] [2] [0] [0]

variable [Facts₀]

def dot_S4x4096x2048_S4x4096x2048_S4x2048x2048_1_1_2_2_0_0 : DotDims S4x4096x2048 S4x4096x2048 S4x2048x2048 where
  lhsContracting := [1]
  rhsContracting := [1]
  lhsNonContracting := [2]
  rhsNonContracting := [2]
  lhsBatch := [0]
  rhsBatch := [0]
  wf := dot_S4x4096x2048_S4x4096x2048_S4x2048x2048_1_1_2_2_0_0_wf
def dot_S4x4096x2048_S4x2048x2048_S4x4096x2048_2_1_1_2_0_0 : DotDims S4x4096x2048 S4x2048x2048 S4x4096x2048 where
  lhsContracting := [2]
  rhsContracting := [1]
  lhsNonContracting := [1]
  rhsNonContracting := [2]
  lhsBatch := [0]
  rhsBatch := [0]
  wf := dot_S4x4096x2048_S4x2048x2048_S4x4096x2048_2_1_1_2_0_0_wf

class Facts : Prop extends Facts₀ where

variable [Facts]
-- ==== Proof.Lib.lean ====
import Idealize.ShloMosaic.Lib.Pipeline.FrameBody

noncomputable section

namespace Cert.Lib

open Idealize.ShloMosaic

variable {F : FTy → Type} [FloatOps F]

/-- Two overlays on one rectangle (its offsets spelt two ways): the second wins. -/
theorem overlay_overlay_same {s : Shape} {α : Type} {off off' size : Fin s.rank → Nat} (h : off = off')
    (p : ∀ a, off a + size a ≤ s.size a) (p' : ∀ a, off' a + size a ≤ s.size a) (X : s.Idx → α)
    (G₁ : (Rect.unit off size p).shape.Idx → α) (G₂ : (Rect.unit off' size p').shape.Idx → α) :
    (Rect.unit off' size p').overlay ((Rect.unit off size p).overlay X G₁) G₂ = (Rect.unit off' size p').overlay X G₂ := by
  subst h; generalize Rect.unit off size p = r at *
  funext y
  by_cases hy : y ∈ r.set
  · obtain ⟨x, rfl⟩ : ∃ x, r.emb x = y := r.exists_idx_of_mem hy
    rw [Rect.overlay_emb, Rect.overlay_emb]
  · rw [Rect.overlay_of_not_mem _ _ _ hy, Rect.overlay_of_not_mem _ _ _ hy, Rect.overlay_of_not_mem _ _ _ hy]

/-- What was laid over a rectangle is what the rectangle then reads. -/
theorem ld_overlay_self {S : Shape} {e' : EltTy} (r : Rect S) (X : S.Idx → Elt F e') (G : r.shape.Idx → Elt F e') :
    View.ld (r.overlay X G) r = G := funext fun x => r.overlay_emb X G x

/-- The newest store is an overlay on what the older stores gave. -/
theorem read_writes_cons_overlay {σ : RefSig} {κ : Kind} {sp : Space} {s : Shape} {e : EltTy} {Val : EltTy → Type}
    (v : View σ κ sp s e) (f : v.ty.Contents Val) (r : Rect s) (w : r.shape.Idx → Val e) (L : List (View.Piece Val s e)) :
    v.read Val (v.writes Val f (⟨r, w⟩ :: L)) = r.overlay (v.read Val (v.writes Val f L)) w := by
  funext y
  by_cases hy : y ∈ r.set
  · obtain ⟨x, rfl⟩ : ∃ x, r.emb x = y := r.exists_idx_of_mem hy
    rw [View.read_writes_cons_emb, Rect.overlay_emb]
  · have hy' : y ∉ Finset.univ.map r.emb := by rwa [Rect.map_emb_univ]
    rw [View.writes_cons, View.read_slice_write_of_not_mem r _ _ _ hy', Rect.overlay_of_not_mem _ _ _ hy]

/-- The rectangle that is the whole shape reads the array itself. -/
theorem ld_whole {S : Shape} {e' : EltTy} {off : Fin S.rank → Nat} (h : off = fun _ => 0) (inb : ∀ a, off a + S.size a ≤ S.size a)
    (X : S.Idx → Elt F e') : View.ld X (Rect.unit off S.size inb) = X := by
  subst h; funext x; show X ((Rect.whole S).emb x) = X x; rw [Rect.emb_whole_apply]

theorem hz3 : (![0, 0, 0] : Fin 3 → Nat) = fun _ => 0 := by funext a; fin_cases a <;> rfl

/-- After a store through the whole shape the view reads that store's payload. -/
theorem read_writes_whole {σ : RefSig} {κ : Kind} {sp : Space} {S : Shape} {e : EltTy} {Val : EltTy → Type}
    (v : View σ κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h; funext y
  have e := View.read_writes_cons_emb v f (Rect.whole S) w L y
  rw [Rect.emb_whole_apply] at e
  exact e

/-- A load at the offsets of the newest store reads that store's payload. -/
theorem readCov_same {σ : RefSig} {κ : Kind} {sp : Space} {s : Shape} {e : EltTy} {Val : EltTy → Type} [∀ e, Nonempty (Val e)]
    (v : View σ κ sp s e) {off off' size : Fin s.rank → Nat} (h : off' = off)
    (p' : ∀ a, off' a + size a ≤ s.size a) (p : ∀ a, off a + size a ≤ s.size a)
    (w : (Rect.unit off size p).shape.Idx → Val e) (L : List (View.Piece Val s e)) :
    v.readCov ((⟨Rect.unit off size p, w⟩ : View.Piece Val s e) :: L) (Rect.unit off' size p').toLoadRect = w := by
  subst h; exact View.readCov_cons_toLoadRect v _ w L

section Owns

open Idealize.ShloMosaic.TcCoe Idealize.SL Idealize.SL.RA Idealize.SL.BI
open scoped Idealize.SL.BI
open Idealize.SL.BI.BIBase Idealize.SL.BI.Laws Idealize.SL.ProofMode

variable {nD : Nat} {τ : Topo} {sig : RefSig} {Val : EltTy → Type}
variable {Ix : Type} [DecidableEq Ix] {Name : Type} [DecidableEq Name] {U : Type} [URA U] {Lvl : Type}

/-- A whole buffer owned at `x` is its elements' points-to at the one contents that reads `x`. -/
theorem owns_eq {sp : Space} {sh : Shape} {e : EltTy} {a : Memref sig .tc sp sh e} (h : a.IsWhole) (c : Dev nD) (x : sh.Idx → Val e) :
    (owns (c : Thread nD τ) a fullShare x : sProp (MT nD τ sig Ix Val Name U Lvl))
      = iprop(a.view.loc (c : Thread nD τ) ↦[a.view.set]{fullShare} h.unread x) := by
  unfold owns
  refine BI.Entails.antisymm (?_ : (_ : sProp (MT nD τ sig Ix Val Name U Lvl)) ⊢ _) (?_ : (_ : sProp (MT nD τ sig Ix Val Name U Lvl)) ⊢ _)
  · iintro ⟨%f, %hf, H⟩
    obtain rfl := h.eq_unread hf
    iexact H
  · iintro H
    iexists _; isplitr
    · ipureintro; exact h.read_unread _
    iexact H

theorem owesAt_of_owes [Preorder Lvl] {Λ₀ : Idealize.SL.Sem.Labels} {cfg : Pipeline.Cfg sig Λ₀} {c : Dev nD} (dat : Pipeline.Dat τ Val Ix Name U Lvl cfg c) (ι : Ix)
    (t : Fin (cfg.N + 1)) (ho : dat.owed t = 0) (hr : dat.recorded t = Set.univ) :
    (iprop(∃ W, owes (c : Thread nD τ) (0 : CellTallies nD τ sig Ix) W) : sProp (MT nD τ sig Ix Val Name U Lvl)) ⊢ dat.owesAt ι t := by
  unfold Pipeline.Dat.owesAt Pipeline.owesWithin Pipeline.Dat.bound
  rw [ho, hr]
  iintro ⟨%W, HO⟩; iexists W; isplitr; · ipureintro; exact fun _ _ => Or.inl trivial
  iexact HO

theorem owes_of_owesAt [Preorder Lvl] {Λ₀ : Idealize.SL.Sem.Labels} {cfg : Pipeline.Cfg sig Λ₀} {c : Dev nD} (dat : Pipeline.Dat τ Val Ix Name U Lvl cfg c) (ι : Ix)
    (t : Fin (cfg.N + 1)) (ho : dat.owed t = 0) :
    dat.owesAt ι t ⊢ (iprop(∃ W, owes (c : Thread nD τ) (0 : CellTallies nD τ sig Ix) W) : sProp (MT nD τ sig Ix Val Name U Lvl)) := by
  unfold Pipeline.Dat.owesAt Pipeline.owesWithin
  rw [ho]
  iintro ⟨%W, -, HO⟩; iexists W; iexact HO

end Owns

end Cert.Lib

end
-- ==== Proof.K.Reg0.lean ====
import proofs.«401599_j70669391889130_3_alg».proof.Proof.Gen.Kernel.Launch
import proofs.«401599_j70669391889130_3_alg».proof.Proof.Gen.Kernel.Skeleton
import proofs.«401599_j70669391889130_3_alg».proof.Proof.Gen.Kernel.Points
import proofs.«401599_j70669391889130_3_alg».proof.Proof.Lib
import Idealize.ShloMosaic.Lib.Pipeline.Value
import Idealize.ShloMosaic.Lib.Tactic

noncomputable section

namespace Cert.Kernel.Reg0

open Gen Lib Idealize.ShloMosaic TcCoe Idealize.ShloMosaic.Tactic Idealize.SL RA BI BIBase ProofMode Sem
open Idealize.ShloMosaic.Pipeline (Dat BodyObligation)

variable {F : FTy → Type} [FloatOps F]

local notation "𝕄" => MT nD τ sig Unit (Elt F) ℕ (UR sig nD τ) ℕ

abbrev cond0 (i : grid0.Coords) : Prop := (Scalar.cmpi .ne (Scalar.extui (Scalar.cmpi .eq (BitVec.ofNat 32 (i 1).val) 0#32)) 0#32) = 1#1

theorem hcond0 : ∀ t : Fin cfg0.N, cond0 (grid0.coords t) ↔ t.val % 8 = 0 :=
  (by decide +kernel : ∀ t : Fin grid0.N, cond0 (grid0.coords t) ↔ t.val % 8 = 0)

def acc2 (x : Vec F S1x512x2048 .f32) (p : Vec F S1x1x2048 .f32) : Vec F S1x1x2048 .f32 := k0_pay9 x p
def acc3 (x : Vec F S1x512x2048 .f32) (p : Vec F S1x1x2048 .f32) : Vec F S1x1x2048 .f32 := k0_pay10 x p
def acc4 (x : Vec F S1x512x2048 .f32) (p : Vec F S1x1x2048 .f32) : Vec F S1x1x2048 .f32 := k0_pay1 (k0_pay11 x p)
def acc5 (x : Vec F S1x512x2048 .f32) (p : Vec F S1x1x2048 .f32) : Vec F S1x1x2048 .f32 := k0_pay2 (k0_pay8 x) p

def zero2 : Vec F S1x1x2048 .f32 := k0_pay3 (F := F)
def zero3 : Vec F S1x1x2048 .f32 := k0_pay4 (F := F)
def zero4 : Vec F S1x1x2048 .f32 := k0_pay5 (F := F)
def zero5 : Vec F S1x1x2048 .f32 := k0_pay6 (F := F)

-- Each carried row becomes the point's column sums added to zero at a batch's first point and to the held row at a later one.
theorem run {c : Dev nD} {i : grid0.Coords} {arg2 arg3 : Memref sig .tc .vmem S1x512x2048 .f32} {arg4 arg5 arg6 arg7 : Memref sig .tc .vmem S1x1x2048 .f32}
    (harg2 : arg2.IsWhole) (harg3 : arg3.IsWhole) (harg4 : arg4.IsWhole) (harg5 : arg5.IsWhole) (harg6 : arg6.IsWhole) (harg7 : arg7.IsWhole)
    {x0 x1 : Vec F S1x512x2048 .f32} {d2 d3 d4 d5 : Vec F S1x1x2048 .f32} {E : Set ℕ} {K : PUnit → sProp 𝕄} :
    iprop(owns c arg2 fullShare x0 ∗ owns c arg3 fullShare x1 ∗ owns c arg4 fullShare d2 ∗ owns c arg5 fullShare d3
        ∗ owns c arg6 fullShare d4 ∗ owns c arg7 fullShare d5
        ∗ (iprop(owns c arg2 fullShare x0 ∗ owns c arg3 fullShare x1
            ∗ owns c arg4 fullShare (acc2 x0 (if cond0 i then zero2 else d2))
            ∗ owns c arg5 fullShare (acc3 x0 (if cond0 i then zero3 else d3))
            ∗ owns c arg6 fullShare (acc4 x1 (if cond0 i then zero4 else d4))
            ∗ owns c arg7 fullShare (acc5 x1 (if cond0 i then zero5 else d5))) -∗ K ⟨⟩))
      ⊢ wp frame (wpE (defs₀ (F := F)) Variants.none c none) E (cc0__stats_kernel i arg2 harg2 arg3 harg3 arg4 harg4 arg5 harg5 arg6 harg6 arg7 harg7) K := by
  by_cases hc : cond0 i <;> (first | simp only [if_neg hc] | simp only [if_pos hc]) <;>
  ( simp only [cc0__stats_kernel_eq_skeleton]; unfold cc0__stats_kernel_skel
    simp only [k0_part1_eq_skeleton]; unfold k0_part1_skel
    rw [owns_eq harg2, owns_eq harg3, owns_eq harg4 c d2, owns_eq harg5 c d3, owns_eq harg6 c d4, owns_eq harg7 c d5]
    unfold owns
    iintro ⟨H0, H1, H2, H3, H4, H5, Hk⟩
    sl_exec (disch := exact hc)
    sl_step
    iapply Hk
    iframe H0 H1
    isplitl [H2]; rotate_left
    isplitl [H3]; rotate_left
    isplitl [H4]; rotate_left
    all_goals
      iexists _; isplitr; swap; iassumption
      ipureintro
      sl_unfold_run_names
      rw [read_writes_whole _ _ hz3]
      simp only [View.readAt_eq_ld, Memref.IsWhole.read_unread,
        View.ld_unit_zero (S := S1x512x2048) hz3, View.ld_unit_zero (S := S1x1x2048) hz3, View.readCov_unit_zero (S := S1x1x2048) _ hz3]
      rfl )

variable (V : (c : Dev nD) → (b : Ref sig .tc) → Buf (Elt F) ((c : Thread nD τ).loc b))

def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def carried {α : Type} (step : Fin cfg0.N → α → α) (z : α) : (n : ℕ) → n < cfg0.N → α
  | 0, hn => step ⟨0, hn⟩ z
  | n + 1, hn => step ⟨n + 1, hn⟩ (if (n + 1) % 8 = 0 then z else carried step z n (Nat.lt_of_succ_lt hn))

theorem carried_eq {α : Type} (step : Fin cfg0.N → α → α) (z : α) (t : Fin cfg0.N) :
    carried step z t.val t.isLt = step t (if t.val % 8 = 0 then z else carried step z (t.val - 1) (Nat.lt_of_le_of_lt (Nat.sub_le _ _) t.isLt)) := by
  obtain ⟨n, hn⟩ := t
  cases n <;> rfl

def out2 (c : Dev nD) (n : ℕ) (hn : n < cfg0.N) : Vec F S1x1x2048 .f32 := carried (fun t p => acc2 (iblk V c 0 t) p) zero2 n hn
def out3 (c : Dev nD) (n : ℕ) (hn : n < cfg0.N) : Vec F S1x1x2048 .f32 := carried (fun t p => acc3 (iblk V c 0 t) p) zero3 n hn
def out4 (c : Dev nD) (n : ℕ) (hn : n < cfg0.N) : Vec F S1x1x2048 .f32 := carried (fun t p => acc4 (iblk V c 1 t) p) zero4 n hn
def out5 (c : Dev nD) (n : ℕ) (hn : n < cfg0.N) : Vec F S1x1x2048 .f32 := carried (fun t p => acc5 (iblk V c 1 t) p) zero5 n hn

def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => out2 V c t.val t.isLt
    | ⟨3, _⟩ => out3 V c t.val t.isLt
    | ⟨4, _⟩ => out4 V c t.val t.isLt
    | ⟨5, _⟩ => out5 V c t.val t.isLt
  Φ _ := Pipeline.ΦA spec0 c
  q _ := fullShare
  owed _ := 0

theorem A_eq (c : Dev nD) (w : Fin cfg0.W) : (dat V c).A w = V c (Pipeline.arrRef spec0 w) := rfl

theorem q_full (c : Dev nD) (w : Fin cfg0.W) : (dat V c).q w = fullShare := rfl

theorem owed_zero (c : Dev nD) (t : Fin (cfg0.N + 1)) : (dat V c).owed t = 0 := rfl

theorem recorded_univ (c : Dev nD) (t : Fin (cfg0.N + 1)) : (dat V c).recorded t = Set.univ := rfl

theorem after_first2 (c : Dev nD) (t : Fin cfg0.N) (h : t.val % 8 = 0) :
    (dat V c).after 2 t = acc2 (iblk V c 0 t) zero2 :=
  (carried_eq _ _ t).trans (congrArg _ (if_pos h))
theorem after_next2 (c : Dev nD) (t : Fin cfg0.N) (h : t.val % 8 ≠ 0) :
    (dat V c).after 2 t = acc2 (iblk V c 0 t) ((dat V c).after 2 ⟨t.val - 1, Nat.lt_of_le_of_lt (Nat.sub_le _ _) t.isLt⟩) :=
  (carried_eq _ _ t).trans (congrArg _ (if_neg h))
theorem after_first3 (c : Dev nD) (t : Fin cfg0.N) (h : t.val % 8 = 0) :
    (dat V c).after 3 t = acc3 (iblk V c 0 t) zero3 :=
  (carried_eq _ _ t).trans (congrArg _ (if_pos h))
theorem after_next3 (c : Dev nD) (t : Fin cfg0.N) (h : t.val % 8 ≠ 0) :
    (dat V c).after 3 t = acc3 (iblk V c 0 t) ((dat V c).after 3 ⟨t.val - 1, Nat.lt_of_le_of_lt (Nat.sub_le _ _) t.isLt⟩) :=
  (carried_eq _ _ t).trans (congrArg _ (if_neg h))
theorem after_first4 (c : Dev nD) (t : Fin cfg0.N) (h : t.val % 8 = 0) :
    (dat V c).after 4 t = acc4 (iblk V c 1 t) zero4 :=
  (carried_eq _ _ t).trans (congrArg _ (if_pos h))
theorem after_next4 (c : Dev nD) (t : Fin cfg0.N) (h : t.val % 8 ≠ 0) :
    (dat V c).after 4 t = acc4 (iblk V c 1 t) ((dat V c).after 4 ⟨t.val - 1, Nat.lt_of_le_of_lt (Nat.sub_le _ _) t.isLt⟩) :=
  (carried_eq _ _ t).trans (congrArg _ (if_neg h))
theorem after_first5 (c : Dev nD) (t : Fin cfg0.N) (h : t.val % 8 = 0) :
    (dat V c).after 5 t = acc5 (iblk V c 1 t) zero5 :=
  (carried_eq _ _ t).trans (congrArg _ (if_pos h))
theorem after_next5 (c : Dev nD) (t : Fin cfg0.N) (h : t.val % 8 ≠ 0) :
    (dat V c).after 5 t = acc5 (iblk V c 1 t) ((dat V c).after 5 ⟨t.val - 1, Nat.lt_of_le_of_lt (Nat.sub_le _ _) t.isLt⟩) :=
  (carried_eq _ _ t).trans (congrArg _ (if_neg h))

theorem before0 (c : Dev nD) (t : Fin cfg0.N) (d) : (dat V c).before 0 t d = iblk V c 0 t :=
  (dat V c).before_in_eq_fetched 0 rfl (fun _ => rfl) (fun _ _ _ => rfl) (fun _ => rfl) t d
theorem before1 (c : Dev nD) (t : Fin cfg0.N) (d) : (dat V c).before 1 t d = iblk V c 1 t :=
  (dat V c).before_in_eq_fetched 1 rfl (fun _ => rfl) (fun _ _ _ => rfl) (fun _ => rfl) t d

-- One step of `carried`; off a batch's first point the row found is the one the point before left.
theorem step_eq (c : Dev nD) (w : Fin cfg0.W) (hw : (cfg0.win w).isOut = true)
    (hfl : ∀ u : Fin cfg0.N, (cfg0.win w).flush u = true ↔ u.val % 8 = 7) (hcl : ∀ (i : cfg0.grid.Coords) a, (cfg0.win w).clip i a = none)
    {step} {z} (hafter : ∀ t, (dat V c).after w t = carried step z t.val t.isLt) (t : Fin cfg0.N) (d) :
    step t (if cond0 (grid0.coords t) then z else (dat V c).before w t d) = (dat V c).after w t := by
  rw [hafter, carried_eq]
  exact congrArg _ (if_ctx_congr (hcond0 t) (fun _ => rfl) fun h => ((dat V c).before_out_kept w hw t (fun h0 => h (by rw [h0]))
    (by rw [← Bool.not_eq_true, hfl]; show ¬(t.val - 1) % 8 = 7; omega) (fun _ => rfl) hcl d).trans (hafter _))

theorem body_obligation (c : Dev nD) : BodyObligation (dat (F := F) V c) (defs₀ (F := F)) Variants.none () Set.univ := fun t => by
  rw [bigSep_W0, bigSep_W0]
  simp only [before0, before1]
  rw [show (dat V c).Φ t.succ = (dat V c).Φ t.castSucc from rfl, show (dat V c).owesAt () t.succ = (dat V c).owesAt () t.castSucc from rfl,
    show (dat V c).after 0 t = iblk V c 0 t from rfl, show (dat V c).after 1 t = iblk V c 1 t from rfl]
  iintro ⟨HΦ, Ho, ⟨%d0, H0⟩, ⟨%d1, H1⟩, ⟨%d2, H2⟩, ⟨%d3, H3⟩, ⟨%d4, H4⟩, ⟨%d5, H5⟩⟩
  iapply run _ _ _ _ _ _
  iframe H0 H1 H2 H3 H4 H5
  rw [step_eq V c 2 rfl flush0_2 (fun _ _ => rfl) (fun _ => rfl) t d2,
    step_eq V c 3 rfl flush0_3 (fun _ _ => rfl) (fun _ => rfl) t d3,
    step_eq V c 4 rfl flush0_4 (fun _ _ => rfl) (fun _ => rfl) t d4,
    step_eq V c 5 rfl flush0_5 (fun _ _ => rfl) (fun _ => rfl) t d5]
  iintro ⟨H0, H1, H2, H3, H4, H5⟩
  iframe

theorem hin (c : Dev nD) : Pipeline.ΦA spec0 c ⊢ (dat V c).Φ 0 := .rfl

theorem hout (c : Dev nD) : (dat V c).Φ (Fin.last cfg0.N) ⊢ Pipeline.ΦA spec0 c := .rfl

end Cert.Kernel.Reg0

end
-- ==== Proof.K.Reg1.lean ====
import proofs.«401599_j70669391889130_3_alg».proof.Proof.Gen.Kernel.Launch
import proofs.«401599_j70669391889130_3_alg».proof.Proof.Gen.Kernel.Skeleton
import proofs.«401599_j70669391889130_3_alg».proof.Proof.Gen.Kernel.Points
import proofs.«401599_j70669391889130_3_alg».proof.Proof.Lib
import Idealize.ShloMosaic.Lib.Tactic

set_option maxRecDepth 16384

noncomputable section

namespace Cert.Kernel.Reg1

open Cert.Kernel Cert.Kernel.Gen Cert.Lib
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev xblk (c : Dev nD) (t : Fin cfg1.N) : Vec F S1x512x2048 .f32 := iblk V c 0 t
abbrev yblk (c : Dev nD) (t : Fin cfg1.N) : Vec F S1x512x256 .f32 := iblk V c 1 t
abbrev xxblk (c : Dev nD) (t : Fin cfg1.N) : Vec F S1x1x2048 .f32 := iblk V c 2 t
abbrev xsblk (c : Dev nD) (t : Fin cfg1.N) : Vec F S1x1x2048 .f32 := iblk V c 3 t
abbrev mublk (c : Dev nD) (t : Fin cfg1.N) : Vec F S1x1x256 .f32 := iblk V c 4 t
abbrev sblk (c : Dev nD) (t : Fin cfg1.N) : Vec F S1x1x256 .f32 := iblk V c 5 t
abbrev yyblk (c : Dev nD) (t : Fin cfg1.N) : Vec F S1x1x256 .f32 := iblk V c 6 t

abbrev slab (i : grid1.Coords) : Rect S2048x2048 := Rect.unit (s := S2048x2048) (k1_off2 i) S2048x256.size (k1_off2_inb i)

def stepAcc (i : grid1.Coords) (x : Vec F S1x512x2048 .f32) (y : Vec F S1x512x256 .f32) (prev : Vec F S2048x2048 .f32) :
    Vec F S2048x2048 .f32 :=
  (slab i).overlay prev (k1_pay2 x y (View.ld prev (slab i)))

def stepReset (i : grid1.Coords) (x : Vec F S1x512x2048 .f32) (y : Vec F S1x512x256 .f32) (prev : Vec F S2048x2048 .f32) :
    Vec F S2048x2048 .f32 :=
  (slab i).overlay prev (k1_pay2 x y (k1_pay1 (F := F)))

def stepAt (c : Dev nD) (t : Fin cfg1.N) (prev : Vec F S2048x2048 .f32) : Vec F S2048x2048 .f32 :=
  if k1_cond1 (grid1.coords t) = 1#1 then stepReset (grid1.coords t) (xblk V c t) (yblk V c t) prev
  else stepAcc (grid1.coords t) (xblk V c t) (yblk V c t) prev

def accStart : Vec F S2048x2048 .f32 := fun _ => Classical.choice (Elt.nonempty F .f32)

def accBefore (c : Dev nD) : (n : ℕ) → n ≤ cfg1.N → Vec F S2048x2048 .f32
  | 0, _ => accStart
  | n + 1, hn => stepAt V c ⟨n, hn⟩ (accBefore c n (Nat.le_of_lt hn))

def accAt (c : Dev nD) (n : ℕ) (hn : n < cfg1.N) : Vec F S2048x2048 .f32 := accBefore V c (n + 1) hn

theorem accAt_reset (c : Dev nD) (t : Fin cfg1.N) (h : k1_cond1 (grid1.coords t) = 1#1) :
    accAt V c t.val t.isLt = (slab (grid1.coords t)).overlay (accBefore V c t.val (Nat.le_of_lt t.isLt))
      (k1_pay2 (xblk V c t) (yblk V c t) (k1_pay1 (F := F))) :=
  if_pos h

theorem accAt_acc (c : Dev nD) (t : Fin cfg1.N) (h : ¬ k1_cond1 (grid1.coords t) = 1#1) :
    accAt V c t.val t.isLt = (slab (grid1.coords t)).overlay (accBefore V c t.val (Nat.le_of_lt t.isLt))
      (k1_pay2 (xblk V c t) (yblk V c t) (View.ld (accBefore V c t.val (Nat.le_of_lt t.isLt)) (slab (grid1.coords t)))) :=
  if_neg h

def outAt (c : Dev nD) (t : Fin cfg1.N) : Vec F S1x2048x256 .bf16 :=
  k1_pay3
    (k1_pay4 (View.ld (accAt V c t.val t.isLt) (slab (grid1.coords t))) (mublk V c t) (sblk V c t) (yyblk V c t) (xxblk V c t) (xsblk V c t))
    (k1_pay5 (View.ld (accAt V c t.val t.isLt) (slab (grid1.coords t))) (mublk V c t) (sblk V c t) (yyblk V c t) (xxblk V c t) (xsblk V c t))

theorem hcond1 : ∀ t : Fin cfg1.N, k1_cond1 (grid1.coords t) = 1#1 ↔ t.val / 8 % 8 = 0 :=
  (by decide +kernel : ∀ t : Fin grid1.N, k1_cond1 (grid1.coords t) = 1#1 ↔ t.val / 8 % 8 = 0)
theorem hmt : ∀ t : Fin cfg1.N, ((grid1.coords t) 2).val = t.val % 8 :=
  (by decide +kernel : ∀ t : Fin grid1.N, ((grid1.coords t) 2).val = t.val % 8)

theorem mem_slab (i : grid1.Coords) (y : S2048x2048.Idx) :
    y ∈ (slab i).set ↔ 256 * (i 2).val ≤ (y 1).val ∧ (y 1).val < 256 * (i 2).val + 256 := by
  rw [Rect.mem_set_unit, k1_off2_eq i]
  exact ⟨fun h => h 1, fun h a => match a with | 0 => ⟨Nat.zero_le _, (y 0).isLt⟩ | 1 => h⟩

theorem slab_idx_col (i : grid1.Coords) (x : (slab i).shape.Idx) : ((slab i).idx x 1).val = 256 * (i 2).val + (x 1).val := by
  rw [LoadRect.idx_apply]
  show (k1_off2 i) 1 + 1 * (x 1).val = _
  rw [k1_off2_eq i]; show 256 * (i 2).val + 1 * (x 1).val = _; omega

def Agree (n : ℕ) (f g : Vec F S2048x2048 .f32) : Prop := ∀ y : S2048x2048.Idx, (y 1).val < 256 * n → f y = g y

-- Arrays that agree on the first 256·n columns have the same slab at a point whose slab lies within them.
theorem ld_agree (t : Fin cfg1.N) {n : ℕ} (hn : t.val % 8 < n) {f g : Vec F S2048x2048 .f32} (h : Agree n f g) :
    View.ld f (slab (grid1.coords t)) = View.ld g (slab (grid1.coords t)) := funext fun x => h _ (by
  rw [slab_idx_col, hmt t]
  have hx : (x 1).val < 256 := (x 1).isLt
  omega)

-- A step rebuilds its slab from the blocks and, past the first eight points, from what the slab held; off the slab it keeps the array.
theorem step_agree (c : Dev nD) (t : Fin cfg1.N) (f g : Vec F S2048x2048 .f32) (h : Agree t.val f g) :
    Agree (t.val + 1) (stepAt V c t f) (stepAt V c t g) := by
  intro y hy
  have key (G) : (slab (grid1.coords t)).overlay f G y = (slab (grid1.coords t)).overlay g G y := by
    by_cases hmem : y ∈ (slab (grid1.coords t)).set
    · obtain ⟨x, rfl⟩ : ∃ x, (slab (grid1.coords t)).emb x = y := (slab (grid1.coords t)).exists_idx_of_mem hmem
      rw [Rect.overlay_emb, Rect.overlay_emb]
    · rw [Rect.overlay_of_not_mem _ _ _ hmem, Rect.overlay_of_not_mem _ _ _ hmem]
      rw [mem_slab, hmt t] at hmem
      have h2048 : (y 1).val < 2048 := (y 1).isLt
      exact h y (by omega)
  unfold stepAt stepReset stepAcc
  split
  · exact key _
  · rename_i hc
    rw [ld_agree t (by have := (hcond1 t).not.mp hc; omega) h]
    exact key _

set_option maxHeartbeats 1000000 in
-- The body's triple: the inputs unchanged, the accumulator stepped, the output at the weights when the second condition holds.
theorem run (c : Dev nD) (i : grid1.Coords) {a0 a1 a2 a3 a4 a5 a6 a7 a8} (h0 : Memref.IsWhole a0) (h1 : Memref.IsWhole a1) (h2 : Memref.IsWhole a2) (h3 : Memref.IsWhole a3)
    (h4 : Memref.IsWhole a4) (h5 : Memref.IsWhole a5) (h6 : Memref.IsWhole a6) (h7 : Memref.IsWhole a7) (h8 : Memref.IsWhole a8) (x0 x1 x2 x3 x4 x5 x6 x7 O xs A) (R : sProp 𝕄)
    (hA : A = if k1_cond1 i = 1#1 then stepReset i x0 x1 xs else stepAcc i x0 x1 xs)
    (hO : O = if k1_cond2 i = 1#1 then k1_pay3 (k1_pay4 (View.ld A (slab i)) x4 x5 x6 x2 x3) (k1_pay5 (View.ld A (slab i)) x4 x5 x6 x2 x3) else x7)
    (hR : R = iprop(owns c.tc a0 fullShare x0 ∗ owns c.tc a1 fullShare x1 ∗ owns c.tc a2 fullShare x2 ∗ owns c.tc a3 fullShare x3 ∗ owns c.tc a4 fullShare x4 ∗ owns c.tc a5 fullShare x5
      ∗ owns c.tc a6 fullShare x6)) (E K) :
    iprop(R ∗ owns c.tc a7 fullShare x7 ∗ owns c.tc a8 fullShare xs ∗ (iprop(R ∗ owns c.tc a7 fullShare O ∗ owns c.tc a8 fullShare A) -∗ K ⟨⟩))
      ⊢ wp frame (wpE (defs₀ (F := F)) Variants.none c none) E (cc1__p_kernel i a0 h0 a1 h1 a2 h2 a3 h3 a4 h4 a5 h5 a6 h6 a7 h7 a8 h8) K := by
  subst hR hO hA
  simp only [cc1__p_kernel_eq_skeleton, owns_eq h0, owns_eq h1, owns_eq h2, owns_eq h3, owns_eq h4, owns_eq h5, owns_eq h6]
  unfold cc1__p_kernel_skel owns
  iintro ⟨⟨H0, H1, H2, H3, H4, H5, H6⟩, ⟨%f7, %hf7, H7⟩, ⟨%fs, %hfs, HS⟩, Hk⟩
  obtain rfl := h8.eq_unread hfs
  have e12 := (k1_off1_eq i).trans (k1_off2_eq i).symm
  have e32 := (k1_off3_eq i).trans (k1_off2_eq i).symm
  by_cases hc1 : k1_cond1 i = 1#1 <;> by_cases hc2 : k1_cond2 i = 1#1 <;> simp only [hc1, hc2, if_true, if_false] <;>
    (sl_exec (disch := first | exact hc1 | exact hc2); sl_step; iapply Hk; iframe
     isplitl [H7]
     · iexists _; isplitr
       swap; · iexact H7
       ipureintro; sl_unfold_run_names
       simp only [hf7, View.readAt_eq_ld, Memref.IsWhole.read_unread, ld_whole (S := S1x512x2048) hz3, ld_whole (S := S1x512x256) hz3, ld_whole (S := S1x1x256) hz3, ld_whole (S := S1x1x2048) hz3,
         read_writes_whole a7.view _ hz3, readCov_same a8.view e32, readCov_same a8.view e12.symm, stepAcc, stepReset] <;> rw [ld_overlay_self]
     iexists _; isplitr
     swap; · iexact HS
     ipureintro; sl_unfold_run_names
     simp only [View.readAt_eq_ld, Memref.IsWhole.read_unread, ld_whole (S := S1x512x2048) hz3, ld_whole (S := S1x512x256) hz3, read_writes_cons_overlay, View.writes_nil,
       readCov_same a8.view e12.symm, overlay_overlay_same (s := S2048x2048) e12, stepAcc, stepReset])

abbrev scM : Memref sig .tc .vmem S2048x2048 .f32 := Memref.whole cc1_scratch0

abbrev restBut (c : Dev nD) : sProp 𝕄 :=
  Pipeline.scopedRestBut (Ix := Unit) (Name := ℕ) (U := UR sig nD τ) (Lvl := ℕ) (Val := Elt F) spec1 c [cc1_scratch0]

-- Before point n the accumulator's buffer agrees with the recursion on the first 256·n columns: on none at the start, on all from the eighth point on.
def PhiS (c : Dev nD) (n : ℕ) (hn : n ≤ cfg1.N) : sProp 𝕄 :=
  iprop(iprop((∃ f, ⌜Agree n f (accBefore V c n hn)⌝ ∗ owns c.tc scM fullShare f) ∗ restBut c) ∗ (∃ r, prngReg c r))

theorem PhiA_eq (c : Dev nD) :
    (Pipeline.ΦA spec1 c : sProp 𝕄) = iprop(iprop((∃ d, owns c.tc scM fullShare d) ∗ restBut c) ∗ (∃ r, prngReg c r)) := by
  unfold Pipeline.ΦA; rw [scopedRest1_split]; simp only [scM, owns_whole]; try rfl

def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => outAt V c t
  Φ t := PhiS V c t.val (Nat.le_of_lt_succ t.isLt)
  q _ := fullShare
  owed _ := 0

theorem A_eq (c : Dev nD) (w : Fin cfg1.W) : (dat V c).A w = V c (Pipeline.arrRef spec1 w) := rfl

theorem q_full (c : Dev nD) (w : Fin cfg1.W) : (dat V c).q w = fullShare := rfl

theorem owed_zero (c : Dev nD) (t : Fin (cfg1.N + 1)) : (dat V c).owed t = 0 := rfl

theorem recorded_univ (c : Dev nD) (t : Fin (cfg1.N + 1)) : (dat V c).recorded t = Set.univ := rfl

theorem after_out (c : Dev nD) (t : Fin cfg1.N) : (dat V c).after 7 t = outAt V c t := rfl

-- For an input window what the body finds is what it leaves, at every point.
theorem at_in (c : Dev nD) : ∀ w : Fin cfg1.W, w ≠ 7 → ∀ t : Fin cfg1.N, (∀ d, (dat V c).before w t d = (dat V c).after w t) ∧
    (dat V c).leavesExact w t = owns c.tc ((cfg1.win w).stage (cfg1.slots t w)) fullShare ((dat V c).after w t)
  | ⟨0, _⟩, _, t | ⟨1, _⟩, _, t | ⟨2, _⟩, _, t | ⟨3, _⟩, _, t | ⟨4, _⟩, _, t | ⟨5, _⟩, _, t | ⟨6, _⟩, _, t =>
    ⟨(dat V c).before_in_eq_fetched _ rfl (fun _ => rfl) (fun _ _ _ => rfl) (fun _ => rfl) t, rfl⟩
  | ⟨7, _⟩, h, _ => absurd rfl h

theorem out_sched : ∀ t : Fin cfg1.N, if k1_cond2 (grid1.coords t) = 1#1 then cfg1.idle 7 (grid1.coords t) = false
    else cfg1.idle 7 (grid1.coords t) = true ∧ (cfg1.win 7).flush t = false := by decide +kernel

-- The body at any point: the step keeps buffer and recursion in agreement one slab further, and the weights are computed from the point's slab, on which they agree.
theorem body_obligation (c : Dev nD) : BodyObligation (dat (F := F) V c) (defs₀ (F := F)) Variants.none () Set.univ := fun t => by
  show iprop(PhiS V c t.val t.isLt.le ∗ _
      ∗ bigSep Finset.univ fun w => iprop(∃ d, owns c.tc ((cfg1.win w).stage (cfg1.slots t w)) fullShare ((dat V c).before w t d)))
    ⊢ wp _ _ _ (bodyAt1 t) fun _ => iprop(PhiS V c (t.val + 1) t.isLt ∗ (dat V c).owesAt () t.castSucc ∗ bigSep Finset.univ fun w => (dat V c).leavesExact w t)
  rw [bigSep_W1, bigSep_W1]
  simp (disch := decide) only [at_in]
  unfold PhiS bodyAt1
  iintro ⟨⟨⟨⟨%f, %hf, HS⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  have hA := step_agree V c t f _ hf
  have hl : View.ld (stepAt V c t f) (slab (grid1.coords t)) = View.ld (accAt V c t.val t.isLt) (slab (grid1.coords t)) :=
    ld_agree t (Nat.lt_succ_of_le (Nat.mod_le _ _)) hA
  iapply (run c (grid1.coords t) (a0 := st1_0 t) (a1 := st1_1 t) (a2 := st1_2 t) (a3 := st1_3 t) (a4 := st1_4 t) (a5 := st1_5 t) (a6 := st1_6 t) (a7 := st1_7 t) _ _ _ _ _ _ _ _ (Memref.isWhole_whole _)
    ((dat V c).after 0 t) ((dat V c).after 1 t) ((dat V c).after 2 t) ((dat V c).after 3 t) ((dat V c).after 4 t) ((dat V c).after 5 t) ((dat V c).after 6 t) ((dat V c).before 7 t d7)
    (if k1_cond2 (grid1.coords t) = 1#1 then outAt V c t else (dat V c).before 7 t d7) f (stepAt V c t f) _ rfl (by unfold outAt; rw [hl]; rfl) rfl)
  iframe
  iintro ⟨⟨H0, H1, H2, H3, H4, H5, H6⟩, H7, HS⟩
  iframe
  isplitl [HS]
  · iexists _; iframe HS; ipureintro; exact hA
  have := out_sched t
  unfold Dat.leavesExact
  split at this
  · rw [this, if_pos ‹_›]; iexact H7
  · rw [this.1, this.2, if_neg ‹_›]; iexists d7; iexact H7

theorem hin (c : Dev nD) : Pipeline.ΦA spec1 c ⊢ (dat V c).Φ 0 := by
  rw [PhiA_eq]; show _ ⊢ PhiS V c 0 _; unfold PhiS
  iintro ⟨⟨⟨%d, HS⟩, Hr⟩, Hg⟩
  iframe Hr Hg
  iexists d; iframe HS
  ipureintro; intro y hy; omega

theorem hout (c : Dev nD) : (dat V c).Φ (Fin.last cfg1.N) ⊢ Pipeline.ΦA spec1 c := by
  rw [PhiA_eq]; show PhiS V c _ _ ⊢ _; unfold PhiS
  iintro ⟨⟨⟨%f, -, HS⟩, Hr⟩, Hg⟩
  iframe Hr Hg
  iexists f; iexact HS

end Cert.Kernel.Reg1

end
-- ==== Proof.K.Reg2.lean ====
import proofs.«401599_j70669391889130_3_alg».proof.Proof.Gen.Kernel.Launch
import proofs.«401599_j70669391889130_3_alg».proof.Proof.Gen.Kernel.Skeleton
import proofs.«401599_j70669391889130_3_alg».proof.Proof.Gen.Kernel.Points
import Idealize.ShloMosaic.Lib.Pipeline.FrameBody
import Idealize.ShloMosaic.Lib.Tactic

set_option maxRecDepth 16384

noncomputable section

namespace Cert.Kernel.Reg2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rX : Rect S1x512x2048 := Rect.unit (s := S1x512x2048) ![0, 0, 0] S1x512x2048.size inb_S1x512x2048_S1x512x2048_0_0_0
abbrev rP (i : grid2.Coords) : Rect S1x2048x2048 := Rect.unit (s := S1x2048x2048) (k2_off1 i) S1x2048x512.size (k2_off1_inb i)
abbrev rRow : Rect S1x1x512 := Rect.unit (s := S1x1x512) ![0, 0, 0] S1x1x512.size inb_S1x1x512_S1x1x512_0_0_0
abbrev rO : Rect S1x512x512 := Rect.unit (s := S1x512x512) ![0, 0, 0] S1x512x512.size inb_S1x512x512_S1x512x512_0_0_0

/-- What the body leaves in the two output blocks, from the four input blocks. -/
def out_4 (i : grid2.Coords) (x0 : Vec F S1x512x2048 .f32) (x1 : Vec F S1x2048x2048 .bf16) (x2 : Vec F S1x1x512 .f32) (x3 : Vec F S1x1x512 .f32) : Vec F S1x512x512 .f32 :=
  View.canon [⟨rO, k2_pay5 (View.ld x0 rX) (View.ld x1 (rP i)) (View.ld x2 rRow) (View.ld x3 rRow)⟩]
def out_5 (i : grid2.Coords) (x0 : Vec F S1x512x2048 .f32) (x1 : Vec F S1x2048x2048 .bf16) (x3 : Vec F S1x1x512 .f32) : Vec F S1x512x512 .f32 :=
  View.canon [⟨rO, k2_pay6 (View.ld x0 rX) (View.ld x1 (rP i)) (View.ld x3 rRow)⟩]

theorem cover_O (p0 : Vec F S1x512x512 .f32) (y : S1x512x512.Idx) :
    ∃ pc ∈ ([⟨rO, p0⟩] : List (View.Piece (Elt F) S1x512x512 .f32)), y ∈ pc.1.set :=
  View.cover_of_tiled [⟨rO, p0⟩] S1x512x512.size (by rfl) y

set_option maxHeartbeats 1000000 in
/-- The body leaves the inputs as read and each output at its payload of the inputs. -/
theorem sound_kernel (c : Dev nD) (E : Set ℕ) (i : grid2.Coords)
    (arg3 : Memref sig .tc .vmem S1x512x2048 .f32) (harg3 : arg3.IsWhole) (arg4 : Memref sig .tc .vmem S1x2048x2048 .bf16) (harg4 : arg4.IsWhole)
    (arg5 : Memref sig .tc .vmem S1x1x512 .f32) (harg5 : arg5.IsWhole) (arg6 : Memref sig .tc .vmem S1x1x512 .f32) (harg6 : arg6.IsWhole)
    (arg7 : Memref sig .tc .vmem S1x512x512 .f32) (harg7 : arg7.IsWhole) (arg8 : Memref sig .tc .vmem S1x512x512 .f32) (harg8 : arg8.IsWhole)
    (x0 : Vec F S1x512x2048 .f32) (x1 : Vec F S1x2048x2048 .bf16) (x2 : Vec F S1x1x512 .f32) (x3 : Vec F S1x1x512 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ (∃ d, owns (c : Thread nD τ) arg7 fullShare d) ∗ (∃ d, owns (c : Thread nD τ) arg8 fullShare d)
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare (out_4 i x0 x1 x2 x3)
            ∗ owns (c : Thread nD τ) arg8 fullShare (out_5 i x0 x1 x3)) -∗ K ⟨⟩))
      ⊢ wp frame (wpE (defs₀ (F := F)) Variants.none c none) E (cc2__predict_kernel i arg3 harg3 arg4 harg4 arg5 harg5 arg6 harg6 arg7 harg7 arg8 harg8) K := by
  simp only [cc2__predict_kernel_eq_skeleton]; unfold cc2__predict_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]; rotate_left
  isplitl [H1]; rotate_left
  isplitl [H2]; rotate_left
  isplitl [H3]; rotate_left
  isplitl [H4]; rotate_left
  all_goals
    iexists _; isplitr; swap; iassumption
    ipureintro
    first | exact View.read_writes_eq_canon _ _ _ (cover_O _) | rfl

def dat (c : Dev nD) : Dat τ (Elt F) Unit ℕ (UR sig nD τ) ℕ cfg2 c := {
  A := fun w => V c (Pipeline.arrRef spec2 w)
  after := fun w t => match w with
    | ⟨0, _⟩ => iblk V c 0 t
    | ⟨1, _⟩ => iblk V c 1 t
    | ⟨2, _⟩ => iblk V c 2 t
    | ⟨3, _⟩ => iblk V c 3 t
    | ⟨4, _⟩ => out_4 (cfg2.grid.coords t) (iblk V c 0 t) (iblk V c 1 t) (iblk V c 2 t) (iblk V c 3 t)
    | ⟨5, _⟩ => out_5 (cfg2.grid.coords t) (iblk V c 0 t) (iblk V c 1 t) (iblk V c 3 t)
  Φ := fun _ => Pipeline.ΦA spec2 c
  q := fun _ => fullShare
  owed := fun _ => 0 }

theorem A_eq (c : Dev nD) (w : Fin cfg2.W) : (dat V c).A w = V c (Pipeline.arrRef spec2 w) := rfl
theorem q_full (c : Dev nD) (w : Fin cfg2.W) : (dat V c).q w = fullShare := rfl
theorem owed_zero (c : Dev nD) (t : Fin (cfg2.N + 1)) : (dat V c).owed t = 0 := rfl
theorem recorded_univ (c : Dev nD) (t : Fin (cfg2.N + 1)) : (dat V c).recorded t = Set.univ := rfl
theorem after_4 (c : Dev nD) (t : Fin cfg2.N) :
    (dat V c).after 4 t = out_4 (cfg2.grid.coords t) (iblk V c 0 t) (iblk V c 1 t) (iblk V c 2 t) (iblk V c 3 t) := by dsimp only [dat]
theorem after_5 (c : Dev nD) (t : Fin cfg2.N) :
    (dat V c).after 5 t = out_5 (cfg2.grid.coords t) (iblk V c 0 t) (iblk V c 1 t) (iblk V c 3 t) := by dsimp only [dat]

theorem before_0 (c : Dev nD) (t : Fin cfg2.N) (d) : (dat V c).before 0 t d = iblk V c 0 t :=
  (dat V c).before_in_eq_fetched 0 rfl (fun _ => rfl) (fun _ _ _ => rfl) (fun _ => rfl) t d
theorem before_1 (c : Dev nD) (t : Fin cfg2.N) (d) : (dat V c).before 1 t d = iblk V c 1 t :=
  (dat V c).before_in_eq_fetched 1 rfl (fun _ => rfl) (fun _ _ _ => rfl) (fun _ => rfl) t d
theorem before_2 (c : Dev nD) (t : Fin cfg2.N) (d) : (dat V c).before 2 t d = iblk V c 2 t :=
  (dat V c).before_in_eq_fetched 2 rfl (fun _ => rfl) (fun _ _ _ => rfl) (fun _ => rfl) t d
theorem before_3 (c : Dev nD) (t : Fin cfg2.N) (d) : (dat V c).before 3 t d = iblk V c 3 t :=
  (dat V c).before_in_eq_fetched 3 rfl (fun _ => rfl) (fun _ _ _ => rfl) (fun _ => rfl) t d

theorem body_obligation (c : Dev nD) : BodyObligation (dat (F := F) V c) (defs₀ (F := F)) Variants.none () Set.univ := fun t => by
  rw [bigSep_W2, bigSep_W2]
  simp only [before_0, before_1, before_2, before_3]
  rw [show (dat V c).Φ t.succ = (dat V c).Φ t.castSucc from rfl,
    show (dat V c).owesAt () t.succ = (dat V c).owesAt () t.castSucc from rfl,
    show (dat V c).after 0 t = iblk V c 0 t from rfl, show (dat V c).after 1 t = iblk V c 1 t from rfl,
    show (dat V c).after 2 t = iblk V c 2 t from rfl, show (dat V c).after 3 t = iblk V c 3 t from rfl, after_4, after_5]
  show _ ⊢ wp _ _ _ (bodyAt2 t) _
  unfold bodyAt2
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid2.coords t) _ _ _ _ _ _ _ _ _ _ _ _ (iblk V c 0 t) (iblk V c 1 t) (iblk V c 2 t) (iblk V c 3 t) _)
  iframe H0 H1 H2 H3
  isplitl [H4]; · iexists _; iexact H4
  isplitl [H5]; · iexists _; iexact H5
  iintro ⟨H0, H1, H2, H3, H4, H5⟩
  iframe

theorem hin (c : Dev nD) : Pipeline.ΦA spec2 c ⊢ (dat V c).Φ 0 := .rfl
theorem hout (c : Dev nD) : (dat V c).Φ (Fin.last cfg2.N) ⊢ Pipeline.ΦA spec2 c := .rfl

end Cert.Kernel.Reg2

end
-- ==== Proof.K.Run.lean ====
import proofs.«401599_j70669391889130_3_alg».proof.Proof.K.Reg0
import proofs.«401599_j70669391889130_3_alg».proof.Proof.K.Reg1
import proofs.«401599_j70669391889130_3_alg».proof.Proof.K.Reg2
import proofs.«401599_j70669391889130_3_alg».proof.Proof.Gen.Kernel.Regions
import proofs.«401599_j70669391889130_3_alg».proof.Proof.Lib
import Idealize.ShloMosaic.Lib.Pipeline.RegionsLoop
import Idealize.ShloMosaic.Lib.Pipeline.FrameSuffix

set_option maxRecDepth 16384

noncomputable section

namespace Cert.Kernel.Run

open Cert.Kernel Cert.Kernel.Gen Cert.Lib
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg BodyObligation)

variable {F : FTy → Type} [FloatOps F]

local notation "𝕄" => MT nD τ sig Unit (Elt F) ℕ (UR sig nD τ) ℕ

abbrev W0 (m : (ℓ : Loc nD τ sig) → Buf (Elt F) ℓ) (ρ : Dev nD → PrngReg) : Dev nD → Valuation τ sig (Elt F) :=
  fun c b => m ((c : Dev nD), b)

variable (m : (ℓ : Loc nD τ sig) → Buf (Elt F) ℓ) (ρ : Dev nD → PrngReg)

/-- A boundary's contents read at the TensorCore's references. -/
abbrev tcOf (W : Dev nD → Valuation τ sig (Elt F)) : (c : Dev nD) → (b : Ref sig .tc) → Buf (Elt F) ((c : Thread nD τ).loc b) :=
  fun c b => W c b

/-- The contents after a kernel region entered at `Wi` with proof data `d`: its arrays at what the region wrote back,
    every other buffer as it was. -/
def nxt {p : Fin 3} (Wi : Dev nD → Valuation τ sig (Elt F)) (d : (c : Dev nD) → Dat τ (Elt F) Unit ℕ (UR sig nD τ) ℕ (cfgs p) c)
    (c : Dev nD) : Valuation τ sig (Elt F) :=
  Pipeline.withArrays (cfgs p).spec c (Wi c) fun w => (d c).arrAt w (cfgs p).N

section
variable {p : Fin 3} (Wi : Dev nD → Valuation τ sig (Elt F))
  (d : (c : Dev nD) → Dat τ (Elt F) Unit ℕ (UR sig nD τ) ℕ (cfgs p) c) (c : Dev nD)

theorem nxt_arr (lf : Pipeline.LaunchFacts (nD := nD) (τ := τ) cfgs p) (w : Fin (cfgs p).W) :
    nxt Wi d c (Proc.devRef .tc (Pipeline.arrRef (cfgs p).spec w)) = (d c).arrAt w (cfgs p).N :=
  Pipeline.withArrays_arr _ lf.win.arr_inj c _ _ w
theorem nxt_of_ne (b : Ref sig .tc) (hb : ∀ w, Pipeline.arrRef (cfgs p).spec w ≠ b) :
    nxt Wi d c (Proc.devRef .tc b) = Wi c (Proc.devRef .tc b) :=
  Pipeline.withArrays_of_ne _ c _ _ b hb
/-- An input's array is left as the region found it. -/
theorem nxt_in (lf : Pipeline.LaunchFacts (nD := nD) (τ := τ) cfgs p) (w : Fin (cfgs p).W) (hin : ((cfgs p).win w).isOut = false) :
    nxt Wi d c (Proc.devRef .tc (Pipeline.arrRef (cfgs p).spec w)) = (d c).A w :=
  (nxt_arr Wi d c lf w).trans ((d c).arrAt_in w hin _)
end

abbrev V0 := tcOf (W0 m ρ)
abbrev W1 : Dev nD → Valuation τ sig (Elt F) := nxt (p := 0) (W0 m ρ) (Reg0.dat (V0 m ρ))
abbrev W2 : Dev nD → Valuation τ sig (Elt F) := fun c => StableHlo.after hostOps1 (W1 m ρ c)
abbrev W3 : Dev nD → Valuation τ sig (Elt F) := fun c => StableHlo.after hostOps1_1 (W2 m ρ c)
abbrev W4 : Dev nD → Valuation τ sig (Elt F) := fun c => StableHlo.after hostOps1_2 (W3 m ρ c)
abbrev V4 := tcOf (W4 m ρ)
abbrev W5 : Dev nD → Valuation τ sig (Elt F) := nxt (p := 1) (W4 m ρ) (Reg1.dat (V4 m ρ))
abbrev V5 := tcOf (W5 m ρ)
abbrev W6 : Dev nD → Valuation τ sig (Elt F) := nxt (p := 2) (W5 m ρ) (Reg2.dat (V5 m ρ))

/-- The three host stretches leave a buffer none of them writes as region 0 left it. -/
theorem W4_W1 (c : Dev nD) (r : Ref sig .tc) (h2 : r ∉ hostOps1_2_W) (h1 : r ∉ hostOps1_1_W) (h0 : r ∉ hostOps1_W) :
    W4 m ρ c (Proc.devRef .tc r) = W1 m ρ c (Proc.devRef .tc r) :=
  (StableHlo.after_of_writes_sub hostOps1_2 _ hostOps1_2_writes h2).trans <|
    (StableHlo.after_of_writes_sub hostOps1_1 _ hostOps1_1_writes h1).trans (StableHlo.after_of_writes_sub hostOps1 _ hostOps1_writes h0)

theorem V4_main_arg0 (c : Dev nD) : V4 m ρ c main_arg0 = m ((c : Thread nD τ).loc main_arg0) :=
  (W4_W1 m ρ c main_arg0 (by decide) (by decide) (by decide)).trans (nxt_in _ _ c launch0 0 rfl)
theorem V4_main_arg1 (c : Dev nD) : V4 m ρ c main_arg1 = m ((c : Thread nD τ).loc main_arg1) :=
  (W4_W1 m ρ c main_arg1 (by decide) (by decide) (by decide)).trans (nxt_in _ _ c launch0 1 rfl)
theorem V5_main_arg0 (c : Dev nD) : V5 m ρ c main_arg0 = m ((c : Thread nD τ).loc main_arg0) :=
  (nxt_in _ _ c launch1 0 rfl).trans (V4_main_arg0 m ρ c)
theorem W6_main_arg0 (c : Dev nD) : W6 m ρ c (Proc.devRef .tc main_arg0) = m ((c : Thread nD τ).loc main_arg0) :=
  (nxt_in _ _ c launch2 0 rfl).trans (V5_main_arg0 m ρ c)
theorem W6_main_arg1 (c : Dev nD) : W6 m ρ c (Proc.devRef .tc main_arg1) = m ((c : Thread nD τ).loc main_arg1) :=
  (nxt_of_ne _ _ c main_arg1 (by decide)).trans <| (nxt_in _ _ c launch1 1 rfl).trans (V4_main_arg1 m ρ c)
theorem W6_main_arg2 (c : Dev nD) : W6 m ρ c (Proc.devRef .tc main_arg2) = m ((c : Thread nD τ).loc main_arg2) :=
  (nxt_of_ne _ _ c main_arg2 (by decide)).trans <| (nxt_of_ne _ _ c main_arg2 (by decide)).trans <|
    (W4_W1 m ρ c main_arg2 (by decide) (by decide) (by decide)).trans (nxt_of_ne _ _ c main_arg2 (by decide))

def pdats : (p : Fin 3) → (c : Dev nD) → Dat τ (Elt F) Unit ℕ (UR sig nD τ) ℕ (Pipeline.pin (pcfgs (F := F)) adm p) c
  | ⟨0, _⟩ => fun c => Reg0.dat (V0 m ρ) c
  | ⟨1, _⟩ => fun c => Reg1.dat (V4 m ρ) c
  | ⟨2, _⟩ => fun c => Reg2.dat (V5 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev held (W : Dev nD → Valuation τ sig (Elt F)) (c : Dev nD) : sProp 𝕄 :=
  iprop(StableHlo.held (c : Thread nD τ) (Pipeline.ucRefs τ sig) (W c) ∗ R c)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- A kernel region as a segment entered from every unscoped buffer at `Wi` and left at `nxt Wi`. -/
def seg (p : Fin 3) (lf : Pipeline.LaunchFacts (nD := nD) (τ := τ) cfgs p) (Wi : Dev nD → Valuation τ sig (Elt F))
    (hb : ∀ c, BodyObligation (pdats m ρ p c) (defs₀ (F := F)) Variants.none () Set.univ)
    (ho : ∀ c t, (pdats m ρ p c).owed t = 0) (hr : ∀ c t, (pdats m ρ p c).recorded t = Set.univ)
    (hq : ∀ c w, (pdats m ρ p c).q w = fullShare)
    (hA : ∀ c w, (pdats m ρ p c).A w = tcOf Wi c (Pipeline.arrRef (cfgs p).spec w))
    (hi : ∀ c, Pipeline.ΦA (cfgs p).spec c ⊢ (pdats m ρ p c).Φ 0)
    (hl : ∀ c, (pdats m ρ p c).Φ (Fin.last (cfgs p).N) ⊢ Pipeline.ΦA (cfgs p).spec c) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p ho
  pre := held Wi
  post := held (nxt Wi (pdats m ρ p))
  X c := iprop(∃ r, prngReg c r)
  Y c := iprop(∃ r, prngReg c r)
  Z c := Pipeline.unscopedRest (Ix := Unit) (Name := ℕ) (U := UR sig nD τ) (Lvl := ℕ) (cfgs p).spec c (tcOf Wi c)
  hentry c := by
    rw [Pipeline.ownSems0_none]
    have hsplit := Pipeline.arrays_of_unscopedBufs (p := p) (pcfgs (F := F)) adm (pdats m ρ) lf.win lf.arr_whole c
      ((pdats m ρ p c).share_full (hq c)) (tcOf Wi c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_of_owes (pdats m ρ p c) () 0 (ho c 0) (hr c 0))
      iexact HO
    isplitl [Hp]; · iexact Hp
    iexact Hrest
  hin c := by
    refine .trans ?_ (hi c)
    unfold Pipeline.ΦA
    iintro ⟨Hp, -, Hr⟩
    isplitl [Hr]; · iexact Hr
    iexact Hp
  hout c := by
    rw [Pipeline.ownSems0_none]
    refine (hl c).trans ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m ρ) ((pdats m ρ p c).share_full (hq c))
      (tcOf Wi c) (tcOf (nxt Wi (pdats m ρ p)) c) ((pdats m ρ p c).arrAt · (cfgs p).N) (fun w => (nxt_arr Wi _ c lf w).symm)
      (fun b hb => nxt_of_ne Wi _ c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    iapply (owes_of_owesAt (pdats m ρ p c) () (Fin.last _) (ho c (Fin.last _)))
    iexact HO

/-- The entry function's six segments: region 0, the three stretches of host operations, regions 1 and 2. -/
abbrev segs : List (Pipeline.Seg (pcfgs (F := F)) adm (pdats m ρ) () defs₀ 𝒱₀ L lv) :=
  [ .region (seg m ρ 0 launch0 (W0 m ρ) (Reg0.body_obligation _) (Reg0.owed_zero _) (Reg0.recorded_univ _)
      (Reg0.q_full _) (Reg0.A_eq _) (Reg0.hin _) (Reg0.hout _)),
    .host (hseg hostOps1 hostOps1_sub hostOps1_fresh (W1 m ρ)),
    .host (hseg hostOps1_1 hostOps1_1_sub hostOps1_1_fresh (W2 m ρ)),
    .host (hseg hostOps1_2 hostOps1_2_sub hostOps1_2_fresh (W3 m ρ)),
    .region (seg m ρ 1 launch1 (W4 m ρ) (Reg1.body_obligation _) (Reg1.owed_zero _) (Reg1.recorded_univ _)
      (Reg1.q_full _) (Reg1.A_eq _) (Reg1.hin _) (Reg1.hout _)),
    .region (seg m ρ 2 launch2 (W5 m ρ) (Reg2.body_obligation _) (Reg2.owed_zero _) (Reg2.recorded_univ _)
      (Reg2.q_full _) (Reg2.A_eq _) (Reg2.hin _) (Reg2.hout _)) ]
theorem main_run (c : Dev nD) : main (F := F) c = Pipeline.Seg.run (segs m ρ) := by
  rw [main_chain c, Pipeline.Seg.run_eq_chain]; rfl

set_option backward.isDefEq.respectTransparency.types false in
/-- From any memory with zero counters, every weakly fair execution of the entry function terminates, nothing
    faulting, and every final memory holds each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := Rounds.initOf (Pipeline.cells cfgs cellOf_inj) (Pipeline.launchToks cfgs cellOf_inj))
    (hu₀ := by
      iintro Hu; imodintro
      isplitl [Hu]
      · iapply (show (ownU _ : sProp 𝕄) ⊢ BI.own (emb₁ _) from .rfl)
        iexact Hu
      iapply (show (BI.emp : sProp 𝕄) ⊢ bigSep Finset.univ (fun _ : Dev nD => (BI.emp : sProp 𝕄)) from by rw [BI.bigSep_emp_const])
      iempintro)
    (T₀ := held (W0 m ρ))
    (Tₙ := fun c => iprop(StableHlo.held (c : Thread nD τ) (Pipeline.ucRefs τ sig) (W6 m ρ c) ∗ ∃ r, prngReg c r))
    (hch := ⟨fun _ => .rfl, fun _ => .rfl, fun _ => .rfl, fun _ => .rfl, fun _ => .rfl, fun _ => .rfl, fun _ => sep_assoc'⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- Every final memory holds the three arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs (onTc (τ := τ) (main (F := F))) ⟨m, fun _ => 0, ρ⟩).mono (fun r h c =>
    ⟨(h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c)⟩) (run_all m ρ)

end Cert.Kernel.Run

end
-- ==== Proof.KI.Reg0.lean ====
import proofs.«401599_j70669391889130_3_alg».proof.Proof.Gen.KernelIdeal.Launch
import proofs.«401599_j70669391889130_3_alg».proof.Proof.Gen.KernelIdeal.Skeleton
import proofs.«401599_j70669391889130_3_alg».proof.Proof.Gen.KernelIdeal.Points
import proofs.«401599_j70669391889130_3_alg».proof.Proof.Lib
import Idealize.ShloMosaic.Lib.Pipeline.Value
import Idealize.ShloMosaic.Lib.Tactic

noncomputable section

namespace Cert.KernelIdeal.Reg0

open Gen Lib Idealize.ShloMosaic TcCoe Idealize.ShloMosaic.Tactic Idealize.SL RA BI BIBase ProofMode Sem
open Idealize.ShloMosaic.Pipeline (Dat BodyObligation)

variable {F : FTy → Type} [FloatOps F]

local notation "𝕄" => MT nD τ sig Unit (Elt F) ℕ (UR sig nD τ) ℕ

abbrev cond0 (i : grid0.Coords) : Prop := (Scalar.cmpi .ne (Scalar.extui (Scalar.cmpi .eq (BitVec.ofNat 32 (i 1).val) 0#32)) 0#32) = 1#1

theorem hcond0 : ∀ t : Fin cfg0.N, cond0 (grid0.coords t) ↔ t.val % 8 = 0 :=
  (by decide +kernel : ∀ t : Fin grid0.N, cond0 (grid0.coords t) ↔ t.val % 8 = 0)

def acc2 (x : Vec F S1x512x2048 .f32) (p : Vec F S1x1x2048 .f32) : Vec F S1x1x2048 .f32 := k0_pay9 x p
def acc3 (x : Vec F S1x512x2048 .f32) (p : Vec F S1x1x2048 .f32) : Vec F S1x1x2048 .f32 := k0_pay10 x p
def acc4 (x : Vec F S1x512x2048 .f32) (p : Vec F S1x1x2048 .f32) : Vec F S1x1x2048 .f32 := k0_pay1 (k0_pay11 x p)
def acc5 (x : Vec F S1x512x2048 .f32) (p : Vec F S1x1x2048 .f32) : Vec F S1x1x2048 .f32 := k0_pay2 (k0_pay8 x) p

def zero2 : Vec F S1x1x2048 .f32 := k0_pay3 (F := F)
def zero3 : Vec F S1x1x2048 .f32 := k0_pay4 (F := F)
def zero4 : Vec F S1x1x2048 .f32 := k0_pay5 (F := F)
def zero5 : Vec F S1x1x2048 .f32 := k0_pay6 (F := F)

-- Each carried row becomes the point's column sums added to zero at a batch's first point and to the held row at a later one.
theorem run {c : Dev nD} {i : grid0.Coords} {arg2 arg3 : Memref sig .tc .vmem S1x512x2048 .f32} {arg4 arg5 arg6 arg7 : Memref sig .tc .vmem S1x1x2048 .f32}
    (harg2 : arg2.IsWhole) (harg3 : arg3.IsWhole) (harg4 : arg4.IsWhole) (harg5 : arg5.IsWhole) (harg6 : arg6.IsWhole) (harg7 : arg7.IsWhole)
    {x0 x1 : Vec F S1x512x2048 .f32} {d2 d3 d4 d5 : Vec F S1x1x2048 .f32} {E : Set ℕ} {K : PUnit → sProp 𝕄} :
    iprop(owns c arg2 fullShare x0 ∗ owns c arg3 fullShare x1 ∗ owns c arg4 fullShare d2 ∗ owns c arg5 fullShare d3
        ∗ owns c arg6 fullShare d4 ∗ owns c arg7 fullShare d5
        ∗ (iprop(owns c arg2 fullShare x0 ∗ owns c arg3 fullShare x1
            ∗ owns c arg4 fullShare (acc2 x0 (if cond0 i then zero2 else d2))
            ∗ owns c arg5 fullShare (acc3 x0 (if cond0 i then zero3 else d3))
            ∗ owns c arg6 fullShare (acc4 x1 (if cond0 i then zero4 else d4))
            ∗ owns c arg7 fullShare (acc5 x1 (if cond0 i then zero5 else d5))) -∗ K ⟨⟩))
      ⊢ wp frame (wpE (defs₀ (F := F)) Variants.none c none) E (cc0__stats_kernel i arg2 harg2 arg3 harg3 arg4 harg4 arg5 harg5 arg6 harg6 arg7 harg7) K := by
  by_cases hc : cond0 i <;> (first | simp only [if_neg hc] | simp only [if_pos hc]) <;>
  ( simp only [cc0__stats_kernel_eq_skeleton]; unfold cc0__stats_kernel_skel
    simp only [k0_part1_eq_skeleton]; unfold k0_part1_skel
    rw [owns_eq harg2, owns_eq harg3, owns_eq harg4 c d2, owns_eq harg5 c d3, owns_eq harg6 c d4, owns_eq harg7 c d5]
    unfold owns
    iintro ⟨H0, H1, H2, H3, H4, H5, Hk⟩
    sl_exec (disch := exact hc)
    sl_step
    iapply Hk
    iframe H0 H1
    isplitl [H2]; rotate_left
    isplitl [H3]; rotate_left
    isplitl [H4]; rotate_left
    all_goals
      iexists _; isplitr; swap; iassumption
      ipureintro
      sl_unfold_run_names
      rw [read_writes_whole _ _ hz3]
      simp only [View.readAt_eq_ld, Memref.IsWhole.read_unread,
        View.ld_unit_zero (S := S1x512x2048) hz3, View.ld_unit_zero (S := S1x1x2048) hz3, View.readCov_unit_zero (S := S1x1x2048) _ hz3]
      rfl )

variable (V : (c : Dev nD) → (b : Ref sig .tc) → Buf (Elt F) ((c : Thread nD τ).loc b))

def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def carried {α : Type} (step : Fin cfg0.N → α → α) (z : α) : (n : ℕ) → n < cfg0.N → α
  | 0, hn => step ⟨0, hn⟩ z
  | n + 1, hn => step ⟨n + 1, hn⟩ (if (n + 1) % 8 = 0 then z else carried step z n (Nat.lt_of_succ_lt hn))

theorem carried_eq {α : Type} (step : Fin cfg0.N → α → α) (z : α) (t : Fin cfg0.N) :
    carried step z t.val t.isLt = step t (if t.val % 8 = 0 then z else carried step z (t.val - 1) (Nat.lt_of_le_of_lt (Nat.sub_le _ _) t.isLt)) := by
  obtain ⟨n, hn⟩ := t
  cases n <;> rfl

def out2 (c : Dev nD) (n : ℕ) (hn : n < cfg0.N) : Vec F S1x1x2048 .f32 := carried (fun t p => acc2 (iblk V c 0 t) p) zero2 n hn
def out3 (c : Dev nD) (n : ℕ) (hn : n < cfg0.N) : Vec F S1x1x2048 .f32 := carried (fun t p => acc3 (iblk V c 0 t) p) zero3 n hn
def out4 (c : Dev nD) (n : ℕ) (hn : n < cfg0.N) : Vec F S1x1x2048 .f32 := carried (fun t p => acc4 (iblk V c 1 t) p) zero4 n hn
def out5 (c : Dev nD) (n : ℕ) (hn : n < cfg0.N) : Vec F S1x1x2048 .f32 := carried (fun t p => acc5 (iblk V c 1 t) p) zero5 n hn

def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => out2 V c t.val t.isLt
    | ⟨3, _⟩ => out3 V c t.val t.isLt
    | ⟨4, _⟩ => out4 V c t.val t.isLt
    | ⟨5, _⟩ => out5 V c t.val t.isLt
  Φ _ := Pipeline.ΦA spec0 c
  q _ := fullShare
  owed _ := 0

theorem A_eq (c : Dev nD) (w : Fin cfg0.W) : (dat V c).A w = V c (Pipeline.arrRef spec0 w) := rfl

theorem q_full (c : Dev nD) (w : Fin cfg0.W) : (dat V c).q w = fullShare := rfl

theorem owed_zero (c : Dev nD) (t : Fin (cfg0.N + 1)) : (dat V c).owed t = 0 := rfl

theorem recorded_univ (c : Dev nD) (t : Fin (cfg0.N + 1)) : (dat V c).recorded t = Set.univ := rfl

theorem after_first2 (c : Dev nD) (t : Fin cfg0.N) (h : t.val % 8 = 0) :
    (dat V c).after 2 t = acc2 (iblk V c 0 t) zero2 :=
  (carried_eq _ _ t).trans (congrArg _ (if_pos h))
theorem after_next2 (c : Dev nD) (t : Fin cfg0.N) (h : t.val % 8 ≠ 0) :
    (dat V c).after 2 t = acc2 (iblk V c 0 t) ((dat V c).after 2 ⟨t.val - 1, Nat.lt_of_le_of_lt (Nat.sub_le _ _) t.isLt⟩) :=
  (carried_eq _ _ t).trans (congrArg _ (if_neg h))
theorem after_first3 (c : Dev nD) (t : Fin cfg0.N) (h : t.val % 8 = 0) :
    (dat V c).after 3 t = acc3 (iblk V c 0 t) zero3 :=
  (carried_eq _ _ t).trans (congrArg _ (if_pos h))
theorem after_next3 (c : Dev nD) (t : Fin cfg0.N) (h : t.val % 8 ≠ 0) :
    (dat V c).after 3 t = acc3 (iblk V c 0 t) ((dat V c).after 3 ⟨t.val - 1, Nat.lt_of_le_of_lt (Nat.sub_le _ _) t.isLt⟩) :=
  (carried_eq _ _ t).trans (congrArg _ (if_neg h))
theorem after_first4 (c : Dev nD) (t : Fin cfg0.N) (h : t.val % 8 = 0) :
    (dat V c).after 4 t = acc4 (iblk V c 1 t) zero4 :=
  (carried_eq _ _ t).trans (congrArg _ (if_pos h))
theorem after_next4 (c : Dev nD) (t : Fin cfg0.N) (h : t.val % 8 ≠ 0) :
    (dat V c).after 4 t = acc4 (iblk V c 1 t) ((dat V c).after 4 ⟨t.val - 1, Nat.lt_of_le_of_lt (Nat.sub_le _ _) t.isLt⟩) :=
  (carried_eq _ _ t).trans (congrArg _ (if_neg h))
theorem after_first5 (c : Dev nD) (t : Fin cfg0.N) (h : t.val % 8 = 0) :
    (dat V c).after 5 t = acc5 (iblk V c 1 t) zero5 :=
  (carried_eq _ _ t).trans (congrArg _ (if_pos h))
theorem after_next5 (c : Dev nD) (t : Fin cfg0.N) (h : t.val % 8 ≠ 0) :
    (dat V c).after 5 t = acc5 (iblk V c 1 t) ((dat V c).after 5 ⟨t.val - 1, Nat.lt_of_le_of_lt (Nat.sub_le _ _) t.isLt⟩) :=
  (carried_eq _ _ t).trans (congrArg _ (if_neg h))

theorem before0 (c : Dev nD) (t : Fin cfg0.N) (d) : (dat V c).before 0 t d = iblk V c 0 t :=
  (dat V c).before_in_eq_fetched 0 rfl (fun _ => rfl) (fun _ _ _ => rfl) (fun _ => rfl) t d
theorem before1 (c : Dev nD) (t : Fin cfg0.N) (d) : (dat V c).before 1 t d = iblk V c 1 t :=
  (dat V c).before_in_eq_fetched 1 rfl (fun _ => rfl) (fun _ _ _ => rfl) (fun _ => rfl) t d

-- One step of `carried`; off a batch's first point the row found is the one the point before left.
theorem step_eq (c : Dev nD) (w : Fin cfg0.W) (hw : (cfg0.win w).isOut = true)
    (hfl : ∀ u : Fin cfg0.N, (cfg0.win w).flush u = true ↔ u.val % 8 = 7) (hcl : ∀ (i : cfg0.grid.Coords) a, (cfg0.win w).clip i a = none)
    {step} {z} (hafter : ∀ t, (dat V c).after w t = carried step z t.val t.isLt) (t : Fin cfg0.N) (d) :
    step t (if cond0 (grid0.coords t) then z else (dat V c).before w t d) = (dat V c).after w t := by
  rw [hafter, carried_eq]
  exact congrArg _ (if_ctx_congr (hcond0 t) (fun _ => rfl) fun h => ((dat V c).before_out_kept w hw t (fun h0 => h (by rw [h0]))
    (by rw [← Bool.not_eq_true, hfl]; show ¬(t.val - 1) % 8 = 7; omega) (fun _ => rfl) hcl d).trans (hafter _))

theorem body_obligation (c : Dev nD) : BodyObligation (dat (F := F) V c) (defs₀ (F := F)) Variants.none () Set.univ := fun t => by
  rw [bigSep_W0, bigSep_W0]
  simp only [before0, before1]
  rw [show (dat V c).Φ t.succ = (dat V c).Φ t.castSucc from rfl, show (dat V c).owesAt () t.succ = (dat V c).owesAt () t.castSucc from rfl,
    show (dat V c).after 0 t = iblk V c 0 t from rfl, show (dat V c).after 1 t = iblk V c 1 t from rfl]
  iintro ⟨HΦ, Ho, ⟨%d0, H0⟩, ⟨%d1, H1⟩, ⟨%d2, H2⟩, ⟨%d3, H3⟩, ⟨%d4, H4⟩, ⟨%d5, H5⟩⟩
  iapply run _ _ _ _ _ _
  iframe H0 H1 H2 H3 H4 H5
  rw [step_eq V c 2 rfl flush0_2 (fun _ _ => rfl) (fun _ => rfl) t d2,
    step_eq V c 3 rfl flush0_3 (fun _ _ => rfl) (fun _ => rfl) t d3,
    step_eq V c 4 rfl flush0_4 (fun _ _ => rfl) (fun _ => rfl) t d4,
    step_eq V c 5 rfl flush0_5 (fun _ _ => rfl) (fun _ => rfl) t d5]
  iintro ⟨H0, H1, H2, H3, H4, H5⟩
  iframe

theorem hin (c : Dev nD) : Pipeline.ΦA spec0 c ⊢ (dat V c).Φ 0 := .rfl

theorem hout (c : Dev nD) : (dat V c).Φ (Fin.last cfg0.N) ⊢ Pipeline.ΦA spec0 c := .rfl

end Cert.KernelIdeal.Reg0

end
-- ==== Proof.KI.Reg1.lean ====
import proofs.«401599_j70669391889130_3_alg».proof.Proof.Gen.KernelIdeal.Launch
import proofs.«401599_j70669391889130_3_alg».proof.Proof.Gen.KernelIdeal.Skeleton
import proofs.«401599_j70669391889130_3_alg».proof.Proof.Gen.KernelIdeal.Points
import proofs.«401599_j70669391889130_3_alg».proof.Proof.Lib
import Idealize.ShloMosaic.Lib.Tactic

set_option maxRecDepth 16384

noncomputable section

namespace Cert.KernelIdeal.Reg1

open Cert.KernelIdeal Cert.KernelIdeal.Gen Cert.Lib
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev xblk (c : Dev nD) (t : Fin cfg1.N) : Vec F S1x512x2048 .f32 := iblk V c 0 t
abbrev yblk (c : Dev nD) (t : Fin cfg1.N) : Vec F S1x512x256 .f32 := iblk V c 1 t
abbrev xxblk (c : Dev nD) (t : Fin cfg1.N) : Vec F S1x1x2048 .f32 := iblk V c 2 t
abbrev xsblk (c : Dev nD) (t : Fin cfg1.N) : Vec F S1x1x2048 .f32 := iblk V c 3 t
abbrev mublk (c : Dev nD) (t : Fin cfg1.N) : Vec F S1x1x256 .f32 := iblk V c 4 t
abbrev sblk (c : Dev nD) (t : Fin cfg1.N) : Vec F S1x1x256 .f32 := iblk V c 5 t
abbrev yyblk (c : Dev nD) (t : Fin cfg1.N) : Vec F S1x1x256 .f32 := iblk V c 6 t

abbrev slab (i : grid1.Coords) : Rect S2048x2048 := Rect.unit (s := S2048x2048) (k1_off2 i) S2048x256.size (k1_off2_inb i)

def stepAcc (i : grid1.Coords) (x : Vec F S1x512x2048 .f32) (y : Vec F S1x512x256 .f32) (prev : Vec F S2048x2048 .f32) :
    Vec F S2048x2048 .f32 :=
  (slab i).overlay prev (k1_pay2 x y (View.ld prev (slab i)))

def stepReset (i : grid1.Coords) (x : Vec F S1x512x2048 .f32) (y : Vec F S1x512x256 .f32) (prev : Vec F S2048x2048 .f32) :
    Vec F S2048x2048 .f32 :=
  (slab i).overlay prev (k1_pay2 x y (k1_pay1 (F := F)))

def stepAt (c : Dev nD) (t : Fin cfg1.N) (prev : Vec F S2048x2048 .f32) : Vec F S2048x2048 .f32 :=
  if k1_cond1 (grid1.coords t) = 1#1 then stepReset (grid1.coords t) (xblk V c t) (yblk V c t) prev
  else stepAcc (grid1.coords t) (xblk V c t) (yblk V c t) prev

def accStart : Vec F S2048x2048 .f32 := fun _ => Classical.choice (Elt.nonempty F .f32)

def accBefore (c : Dev nD) : (n : ℕ) → n ≤ cfg1.N → Vec F S2048x2048 .f32
  | 0, _ => accStart
  | n + 1, hn => stepAt V c ⟨n, hn⟩ (accBefore c n (Nat.le_of_lt hn))

def accAt (c : Dev nD) (n : ℕ) (hn : n < cfg1.N) : Vec F S2048x2048 .f32 := accBefore V c (n + 1) hn

theorem accAt_reset (c : Dev nD) (t : Fin cfg1.N) (h : k1_cond1 (grid1.coords t) = 1#1) :
    accAt V c t.val t.isLt = (slab (grid1.coords t)).overlay (accBefore V c t.val (Nat.le_of_lt t.isLt))
      (k1_pay2 (xblk V c t) (yblk V c t) (k1_pay1 (F := F))) :=
  if_pos h

theorem accAt_acc (c : Dev nD) (t : Fin cfg1.N) (h : ¬ k1_cond1 (grid1.coords t) = 1#1) :
    accAt V c t.val t.isLt = (slab (grid1.coords t)).overlay (accBefore V c t.val (Nat.le_of_lt t.isLt))
      (k1_pay2 (xblk V c t) (yblk V c t) (View.ld (accBefore V c t.val (Nat.le_of_lt t.isLt)) (slab (grid1.coords t)))) :=
  if_neg h

def outAt (c : Dev nD) (t : Fin cfg1.N) : Vec F S1x2048x256 .bf16 :=
  k1_pay3
    (k1_pay4 (View.ld (accAt V c t.val t.isLt) (slab (grid1.coords t))) (mublk V c t) (sblk V c t) (yyblk V c t) (xxblk V c t) (xsblk V c t))
    (k1_pay5 (View.ld (accAt V c t.val t.isLt) (slab (grid1.coords t))) (mublk V c t) (sblk V c t) (yyblk V c t) (xxblk V c t) (xsblk V c t))

theorem hcond1 : ∀ t : Fin cfg1.N, k1_cond1 (grid1.coords t) = 1#1 ↔ t.val / 8 % 8 = 0 :=
  (by decide +kernel : ∀ t : Fin grid1.N, k1_cond1 (grid1.coords t) = 1#1 ↔ t.val / 8 % 8 = 0)
theorem hmt : ∀ t : Fin cfg1.N, ((grid1.coords t) 2).val = t.val % 8 :=
  (by decide +kernel : ∀ t : Fin grid1.N, ((grid1.coords t) 2).val = t.val % 8)

theorem mem_slab (i : grid1.Coords) (y : S2048x2048.Idx) :
    y ∈ (slab i).set ↔ 256 * (i 2).val ≤ (y 1).val ∧ (y 1).val < 256 * (i 2).val + 256 := by
  rw [Rect.mem_set_unit, k1_off2_eq i]
  exact ⟨fun h => h 1, fun h a => match a with | 0 => ⟨Nat.zero_le _, (y 0).isLt⟩ | 1 => h⟩

theorem slab_idx_col (i : grid1.Coords) (x : (slab i).shape.Idx) : ((slab i).idx x 1).val = 256 * (i 2).val + (x 1).val := by
  rw [LoadRect.idx_apply]
  show (k1_off2 i) 1 + 1 * (x 1).val = _
  rw [k1_off2_eq i]; show 256 * (i 2).val + 1 * (x 1).val = _; omega

def Agree (n : ℕ) (f g : Vec F S2048x2048 .f32) : Prop := ∀ y : S2048x2048.Idx, (y 1).val < 256 * n → f y = g y

-- Arrays that agree on the first 256·n columns have the same slab at a point whose slab lies within them.
theorem ld_agree (t : Fin cfg1.N) {n : ℕ} (hn : t.val % 8 < n) {f g : Vec F S2048x2048 .f32} (h : Agree n f g) :
    View.ld f (slab (grid1.coords t)) = View.ld g (slab (grid1.coords t)) := funext fun x => h _ (by
  rw [slab_idx_col, hmt t]
  have hx : (x 1).val < 256 := (x 1).isLt
  omega)

-- A step rebuilds its slab from the blocks and, past the first eight points, from what the slab held; off the slab it keeps the array.
theorem step_agree (c : Dev nD) (t : Fin cfg1.N) (f g : Vec F S2048x2048 .f32) (h : Agree t.val f g) :
    Agree (t.val + 1) (stepAt V c t f) (stepAt V c t g) := by
  intro y hy
  have key (G) : (slab (grid1.coords t)).overlay f G y = (slab (grid1.coords t)).overlay g G y := by
    by_cases hmem : y ∈ (slab (grid1.coords t)).set
    · obtain ⟨x, rfl⟩ : ∃ x, (slab (grid1.coords t)).emb x = y := (slab (grid1.coords t)).exists_idx_of_mem hmem
      rw [Rect.overlay_emb, Rect.overlay_emb]
    · rw [Rect.overlay_of_not_mem _ _ _ hmem, Rect.overlay_of_not_mem _ _ _ hmem]
      rw [mem_slab, hmt t] at hmem
      have h2048 : (y 1).val < 2048 := (y 1).isLt
      exact h y (by omega)
  unfold stepAt stepReset stepAcc
  split
  · exact key _
  · rename_i hc
    rw [ld_agree t (by have := (hcond1 t).not.mp hc; omega) h]
    exact key _

set_option maxHeartbeats 1000000 in
-- The body's triple: the inputs unchanged, the accumulator stepped, the output at the weights when the second condition holds.
theorem run (c : Dev nD) (i : grid1.Coords) {a0 a1 a2 a3 a4 a5 a6 a7 a8} (h0 : Memref.IsWhole a0) (h1 : Memref.IsWhole a1) (h2 : Memref.IsWhole a2) (h3 : Memref.IsWhole a3)
    (h4 : Memref.IsWhole a4) (h5 : Memref.IsWhole a5) (h6 : Memref.IsWhole a6) (h7 : Memref.IsWhole a7) (h8 : Memref.IsWhole a8) (x0 x1 x2 x3 x4 x5 x6 x7 O xs A) (R : sProp 𝕄)
    (hA : A = if k1_cond1 i = 1#1 then stepReset i x0 x1 xs else stepAcc i x0 x1 xs)
    (hO : O = if k1_cond2 i = 1#1 then k1_pay3 (k1_pay4 (View.ld A (slab i)) x4 x5 x6 x2 x3) (k1_pay5 (View.ld A (slab i)) x4 x5 x6 x2 x3) else x7)
    (hR : R = iprop(owns c.tc a0 fullShare x0 ∗ owns c.tc a1 fullShare x1 ∗ owns c.tc a2 fullShare x2 ∗ owns c.tc a3 fullShare x3 ∗ owns c.tc a4 fullShare x4 ∗ owns c.tc a5 fullShare x5
      ∗ owns c.tc a6 fullShare x6)) (E K) :
    iprop(R ∗ owns c.tc a7 fullShare x7 ∗ owns c.tc a8 fullShare xs ∗ (iprop(R ∗ owns c.tc a7 fullShare O ∗ owns c.tc a8 fullShare A) -∗ K ⟨⟩))
      ⊢ wp frame (wpE (defs₀ (F := F)) Variants.none c none) E (cc1__p_kernel i a0 h0 a1 h1 a2 h2 a3 h3 a4 h4 a5 h5 a6 h6 a7 h7 a8 h8) K := by
  subst hR hO hA
  simp only [cc1__p_kernel_eq_skeleton, owns_eq h0, owns_eq h1, owns_eq h2, owns_eq h3, owns_eq h4, owns_eq h5, owns_eq h6]
  unfold cc1__p_kernel_skel owns
  iintro ⟨⟨H0, H1, H2, H3, H4, H5, H6⟩, ⟨%f7, %hf7, H7⟩, ⟨%fs, %hfs, HS⟩, Hk⟩
  obtain rfl := h8.eq_unread hfs
  have e12 := (k1_off1_eq i).trans (k1_off2_eq i).symm
  have e32 := (k1_off3_eq i).trans (k1_off2_eq i).symm
  by_cases hc1 : k1_cond1 i = 1#1 <;> by_cases hc2 : k1_cond2 i = 1#1 <;> simp only [hc1, hc2, if_true, if_false] <;>
    (sl_exec (disch := first | exact hc1 | exact hc2); sl_step; iapply Hk; iframe
     isplitl [H7]
     · iexists _; isplitr
       swap; · iexact H7
       ipureintro; sl_unfold_run_names
       simp only [hf7, View.readAt_eq_ld, Memref.IsWhole.read_unread, ld_whole (S := S1x512x2048) hz3, ld_whole (S := S1x512x256) hz3, ld_whole (S := S1x1x256) hz3, ld_whole (S := S1x1x2048) hz3,
         read_writes_whole a7.view _ hz3, readCov_same a8.view e32, readCov_same a8.view e12.symm, stepAcc, stepReset] <;> rw [ld_overlay_self]
     iexists _; isplitr
     swap; · iexact HS
     ipureintro; sl_unfold_run_names
     simp only [View.readAt_eq_ld, Memref.IsWhole.read_unread, ld_whole (S := S1x512x2048) hz3, ld_whole (S := S1x512x256) hz3, read_writes_cons_overlay, View.writes_nil,
       readCov_same a8.view e12.symm, overlay_overlay_same (s := S2048x2048) e12, stepAcc, stepReset])

abbrev scM : Memref sig .tc .vmem S2048x2048 .f32 := Memref.whole cc1_scratch0

abbrev restBut (c : Dev nD) : sProp 𝕄 :=
  Pipeline.scopedRestBut (Ix := Unit) (Name := ℕ) (U := UR sig nD τ) (Lvl := ℕ) (Val := Elt F) spec1 c [cc1_scratch0]

-- Before point n the accumulator's buffer agrees with the recursion on the first 256·n columns: on none at the start, on all from the eighth point on.
def PhiS (c : Dev nD) (n : ℕ) (hn : n ≤ cfg1.N) : sProp 𝕄 :=
  iprop(iprop((∃ f, ⌜Agree n f (accBefore V c n hn)⌝ ∗ owns c.tc scM fullShare f) ∗ restBut c) ∗ (∃ r, prngReg c r))

theorem PhiA_eq (c : Dev nD) :
    (Pipeline.ΦA spec1 c : sProp 𝕄) = iprop(iprop((∃ d, owns c.tc scM fullShare d) ∗ restBut c) ∗ (∃ r, prngReg c r)) := by
  unfold Pipeline.ΦA; rw [scopedRest1_split]; simp only [scM, owns_whole]; try rfl

def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => outAt V c t
  Φ t := PhiS V c t.val (Nat.le_of_lt_succ t.isLt)
  q _ := fullShare
  owed _ := 0

theorem A_eq (c : Dev nD) (w : Fin cfg1.W) : (dat V c).A w = V c (Pipeline.arrRef spec1 w) := rfl

theorem q_full (c : Dev nD) (w : Fin cfg1.W) : (dat V c).q w = fullShare := rfl

theorem owed_zero (c : Dev nD) (t : Fin (cfg1.N + 1)) : (dat V c).owed t = 0 := rfl

theorem recorded_univ (c : Dev nD) (t : Fin (cfg1.N + 1)) : (dat V c).recorded t = Set.univ := rfl

theorem after_out (c : Dev nD) (t : Fin cfg1.N) : (dat V c).after 7 t = outAt V c t := rfl

-- For an input window what the body finds is what it leaves, at every point.
theorem at_in (c : Dev nD) : ∀ w : Fin cfg1.W, w ≠ 7 → ∀ t : Fin cfg1.N, (∀ d, (dat V c).before w t d = (dat V c).after w t) ∧
    (dat V c).leavesExact w t = owns c.tc ((cfg1.win w).stage (cfg1.slots t w)) fullShare ((dat V c).after w t)
  | ⟨0, _⟩, _, t | ⟨1, _⟩, _, t | ⟨2, _⟩, _, t | ⟨3, _⟩, _, t | ⟨4, _⟩, _, t | ⟨5, _⟩, _, t | ⟨6, _⟩, _, t =>
    ⟨(dat V c).before_in_eq_fetched _ rfl (fun _ => rfl) (fun _ _ _ => rfl) (fun _ => rfl) t, rfl⟩
  | ⟨7, _⟩, h, _ => absurd rfl h

theorem out_sched : ∀ t : Fin cfg1.N, if k1_cond2 (grid1.coords t) = 1#1 then cfg1.idle 7 (grid1.coords t) = false
    else cfg1.idle 7 (grid1.coords t) = true ∧ (cfg1.win 7).flush t = false := by decide +kernel

-- The body at any point: the step keeps buffer and recursion in agreement one slab further, and the weights are computed from the point's slab, on which they agree.
theorem body_obligation (c : Dev nD) : BodyObligation (dat (F := F) V c) (defs₀ (F := F)) Variants.none () Set.univ := fun t => by
  show iprop(PhiS V c t.val t.isLt.le ∗ _
      ∗ bigSep Finset.univ fun w => iprop(∃ d, owns c.tc ((cfg1.win w).stage (cfg1.slots t w)) fullShare ((dat V c).before w t d)))
    ⊢ wp _ _ _ (bodyAt1 t) fun _ => iprop(PhiS V c (t.val + 1) t.isLt ∗ (dat V c).owesAt () t.castSucc ∗ bigSep Finset.univ fun w => (dat V c).leavesExact w t)
  rw [bigSep_W1, bigSep_W1]
  simp (disch := decide) only [at_in]
  unfold PhiS bodyAt1
  iintro ⟨⟨⟨⟨%f, %hf, HS⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  have hA := step_agree V c t f _ hf
  have hl : View.ld (stepAt V c t f) (slab (grid1.coords t)) = View.ld (accAt V c t.val t.isLt) (slab (grid1.coords t)) :=
    ld_agree t (Nat.lt_succ_of_le (Nat.mod_le _ _)) hA
  iapply (run c (grid1.coords t) (a0 := st1_0 t) (a1 := st1_1 t) (a2 := st1_2 t) (a3 := st1_3 t) (a4 := st1_4 t) (a5 := st1_5 t) (a6 := st1_6 t) (a7 := st1_7 t) _ _ _ _ _ _ _ _ (Memref.isWhole_whole _)
    ((dat V c).after 0 t) ((dat V c).after 1 t) ((dat V c).after 2 t) ((dat V c).after 3 t) ((dat V c).after 4 t) ((dat V c).after 5 t) ((dat V c).after 6 t) ((dat V c).before 7 t d7)
    (if k1_cond2 (grid1.coords t) = 1#1 then outAt V c t else (dat V c).before 7 t d7) f (stepAt V c t f) _ rfl (by unfold outAt; rw [hl]; rfl) rfl)
  iframe
  iintro ⟨⟨H0, H1, H2, H3, H4, H5, H6⟩, H7, HS⟩
  iframe
  isplitl [HS]
  · iexists _; iframe HS; ipureintro; exact hA
  have := out_sched t
  unfold Dat.leavesExact
  split at this
  · rw [this, if_pos ‹_›]; iexact H7
  · rw [this.1, this.2, if_neg ‹_›]; iexists d7; iexact H7

theorem hin (c : Dev nD) : Pipeline.ΦA spec1 c ⊢ (dat V c).Φ 0 := by
  rw [PhiA_eq]; show _ ⊢ PhiS V c 0 _; unfold PhiS
  iintro ⟨⟨⟨%d, HS⟩, Hr⟩, Hg⟩
  iframe Hr Hg
  iexists d; iframe HS
  ipureintro; intro y hy; omega

theorem hout (c : Dev nD) : (dat V c).Φ (Fin.last cfg1.N) ⊢ Pipeline.ΦA spec1 c := by
  rw [PhiA_eq]; show PhiS V c _ _ ⊢ _; unfold PhiS
  iintro ⟨⟨⟨%f, -, HS⟩, Hr⟩, Hg⟩
  iframe Hr Hg
  iexists f; iexact HS

end Cert.KernelIdeal.Reg1

end
-- ==== Proof.KI.Reg2.lean ====
import proofs.«401599_j70669391889130_3_alg».proof.Proof.Gen.KernelIdeal.Launch
import proofs.«401599_j70669391889130_3_alg».proof.Proof.Gen.KernelIdeal.Skeleton
import proofs.«401599_j70669391889130_3_alg».proof.Proof.Gen.KernelIdeal.Points
import Idealize.ShloMosaic.Lib.Pipeline.FrameBody
import Idealize.ShloMosaic.Lib.Tactic

set_option maxRecDepth 16384

noncomputable section

namespace Cert.KernelIdeal.Reg2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rX : Rect S1x512x2048 := Rect.unit (s := S1x512x2048) ![0, 0, 0] S1x512x2048.size inb_S1x512x2048_S1x512x2048_0_0_0
abbrev rP (i : grid2.Coords) : Rect S1x2048x2048 := Rect.unit (s := S1x2048x2048) (k2_off1 i) S1x2048x512.size (k2_off1_inb i)
abbrev rRow : Rect S1x1x512 := Rect.unit (s := S1x1x512) ![0, 0, 0] S1x1x512.size inb_S1x1x512_S1x1x512_0_0_0
abbrev rO : Rect S1x512x512 := Rect.unit (s := S1x512x512) ![0, 0, 0] S1x512x512.size inb_S1x512x512_S1x512x512_0_0_0

/-- What the body leaves in the two output blocks, from the four input blocks. -/
def out_4 (i : grid2.Coords) (x0 : Vec F S1x512x2048 .f32) (x1 : Vec F S1x2048x2048 .bf16) (x2 : Vec F S1x1x512 .f32) (x3 : Vec F S1x1x512 .f32) : Vec F S1x512x512 .f32 :=
  View.canon [⟨rO, k2_pay5 (View.ld x0 rX) (View.ld x1 (rP i)) (View.ld x2 rRow) (View.ld x3 rRow)⟩]
def out_5 (i : grid2.Coords) (x0 : Vec F S1x512x2048 .f32) (x1 : Vec F S1x2048x2048 .bf16) (x3 : Vec F S1x1x512 .f32) : Vec F S1x512x512 .f32 :=
  View.canon [⟨rO, k2_pay6 (View.ld x0 rX) (View.ld x1 (rP i)) (View.ld x3 rRow)⟩]

theorem cover_O (p0 : Vec F S1x512x512 .f32) (y : S1x512x512.Idx) :
    ∃ pc ∈ ([⟨rO, p0⟩] : List (View.Piece (Elt F) S1x512x512 .f32)), y ∈ pc.1.set :=
  View.cover_of_tiled [⟨rO, p0⟩] S1x512x512.size (by rfl) y

set_option maxHeartbeats 1000000 in
/-- The body leaves the inputs as read and each output at its payload of the inputs. -/
theorem sound_kernel (c : Dev nD) (E : Set ℕ) (i : grid2.Coords)
    (arg3 : Memref sig .tc .vmem S1x512x2048 .f32) (harg3 : arg3.IsWhole) (arg4 : Memref sig .tc .vmem S1x2048x2048 .bf16) (harg4 : arg4.IsWhole)
    (arg5 : Memref sig .tc .vmem S1x1x512 .f32) (harg5 : arg5.IsWhole) (arg6 : Memref sig .tc .vmem S1x1x512 .f32) (harg6 : arg6.IsWhole)
    (arg7 : Memref sig .tc .vmem S1x512x512 .f32) (harg7 : arg7.IsWhole) (arg8 : Memref sig .tc .vmem S1x512x512 .f32) (harg8 : arg8.IsWhole)
    (x0 : Vec F S1x512x2048 .f32) (x1 : Vec F S1x2048x2048 .bf16) (x2 : Vec F S1x1x512 .f32) (x3 : Vec F S1x1x512 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ (∃ d, owns (c : Thread nD τ) arg7 fullShare d) ∗ (∃ d, owns (c : Thread nD τ) arg8 fullShare d)
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare (out_4 i x0 x1 x2 x3)
            ∗ owns (c : Thread nD τ) arg8 fullShare (out_5 i x0 x1 x3)) -∗ K ⟨⟩))
      ⊢ wp frame (wpE (defs₀ (F := F)) Variants.none c none) E (cc2__predict_kernel i arg3 harg3 arg4 harg4 arg5 harg5 arg6 harg6 arg7 harg7 arg8 harg8) K := by
  simp only [cc2__predict_kernel_eq_skeleton]; unfold cc2__predict_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]; rotate_left
  isplitl [H1]; rotate_left
  isplitl [H2]; rotate_left
  isplitl [H3]; rotate_left
  isplitl [H4]; rotate_left
  all_goals
    iexists _; isplitr; swap; iassumption
    ipureintro
    first | exact View.read_writes_eq_canon _ _ _ (cover_O _) | rfl

def dat (c : Dev nD) : Dat τ (Elt F) Unit ℕ (UR sig nD τ) ℕ cfg2 c := {
  A := fun w => V c (Pipeline.arrRef spec2 w)
  after := fun w t => match w with
    | ⟨0, _⟩ => iblk V c 0 t
    | ⟨1, _⟩ => iblk V c 1 t
    | ⟨2, _⟩ => iblk V c 2 t
    | ⟨3, _⟩ => iblk V c 3 t
    | ⟨4, _⟩ => out_4 (cfg2.grid.coords t) (iblk V c 0 t) (iblk V c 1 t) (iblk V c 2 t) (iblk V c 3 t)
    | ⟨5, _⟩ => out_5 (cfg2.grid.coords t) (iblk V c 0 t) (iblk V c 1 t) (iblk V c 3 t)
  Φ := fun _ => Pipeline.ΦA spec2 c
  q := fun _ => fullShare
  owed := fun _ => 0 }

theorem A_eq (c : Dev nD) (w : Fin cfg2.W) : (dat V c).A w = V c (Pipeline.arrRef spec2 w) := rfl
theorem q_full (c : Dev nD) (w : Fin cfg2.W) : (dat V c).q w = fullShare := rfl
theorem owed_zero (c : Dev nD) (t : Fin (cfg2.N + 1)) : (dat V c).owed t = 0 := rfl
theorem recorded_univ (c : Dev nD) (t : Fin (cfg2.N + 1)) : (dat V c).recorded t = Set.univ := rfl
theorem after_4 (c : Dev nD) (t : Fin cfg2.N) :
    (dat V c).after 4 t = out_4 (cfg2.grid.coords t) (iblk V c 0 t) (iblk V c 1 t) (iblk V c 2 t) (iblk V c 3 t) := by dsimp only [dat]
theorem after_5 (c : Dev nD) (t : Fin cfg2.N) :
    (dat V c).after 5 t = out_5 (cfg2.grid.coords t) (iblk V c 0 t) (iblk V c 1 t) (iblk V c 3 t) := by dsimp only [dat]

theorem before_0 (c : Dev nD) (t : Fin cfg2.N) (d) : (dat V c).before 0 t d = iblk V c 0 t :=
  (dat V c).before_in_eq_fetched 0 rfl (fun _ => rfl) (fun _ _ _ => rfl) (fun _ => rfl) t d
theorem before_1 (c : Dev nD) (t : Fin cfg2.N) (d) : (dat V c).before 1 t d = iblk V c 1 t :=
  (dat V c).before_in_eq_fetched 1 rfl (fun _ => rfl) (fun _ _ _ => rfl) (fun _ => rfl) t d
theorem before_2 (c : Dev nD) (t : Fin cfg2.N) (d) : (dat V c).before 2 t d = iblk V c 2 t :=
  (dat V c).before_in_eq_fetched 2 rfl (fun _ => rfl) (fun _ _ _ => rfl) (fun _ => rfl) t d
theorem before_3 (c : Dev nD) (t : Fin cfg2.N) (d) : (dat V c).before 3 t d = iblk V c 3 t :=
  (dat V c).before_in_eq_fetched 3 rfl (fun _ => rfl) (fun _ _ _ => rfl) (fun _ => rfl) t d

theorem body_obligation (c : Dev nD) : BodyObligation (dat (F := F) V c) (defs₀ (F := F)) Variants.none () Set.univ := fun t => by
  rw [bigSep_W2, bigSep_W2]
  simp only [before_0, before_1, before_2, before_3]
  rw [show (dat V c).Φ t.succ = (dat V c).Φ t.castSucc from rfl,
    show (dat V c).owesAt () t.succ = (dat V c).owesAt () t.castSucc from rfl,
    show (dat V c).after 0 t = iblk V c 0 t from rfl, show (dat V c).after 1 t = iblk V c 1 t from rfl,
    show (dat V c).after 2 t = iblk V c 2 t from rfl, show (dat V c).after 3 t = iblk V c 3 t from rfl, after_4, after_5]
  show _ ⊢ wp _ _ _ (bodyAt2 t) _
  unfold bodyAt2
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid2.coords t) _ _ _ _ _ _ _ _ _ _ _ _ (iblk V c 0 t) (iblk V c 1 t) (iblk V c 2 t) (iblk V c 3 t) _)
  iframe H0 H1 H2 H3
  isplitl [H4]; · iexists _; iexact H4
  isplitl [H5]; · iexists _; iexact H5
  iintro ⟨H0, H1, H2, H3, H4, H5⟩
  iframe

theorem hin (c : Dev nD) : Pipeline.ΦA spec2 c ⊢ (dat V c).Φ 0 := .rfl
theorem hout (c : Dev nD) : (dat V c).Φ (Fin.last cfg2.N) ⊢ Pipeline.ΦA spec2 c := .rfl

end Cert.KernelIdeal.Reg2

end
-- ==== Proof.KI.Run.lean ====
import proofs.«401599_j70669391889130_3_alg».proof.Proof.KI.Reg0
import proofs.«401599_j70669391889130_3_alg».proof.Proof.KI.Reg1
import proofs.«401599_j70669391889130_3_alg».proof.Proof.KI.Reg2
import proofs.«401599_j70669391889130_3_alg».proof.Proof.Gen.KernelIdeal.Regions
import proofs.«401599_j70669391889130_3_alg».proof.Proof.Lib
import Idealize.ShloMosaic.Lib.Pipeline.RegionsLoop
import Idealize.ShloMosaic.Lib.Pipeline.FrameSuffix

set_option maxRecDepth 16384

noncomputable section

namespace Cert.KernelIdeal.Run

open Cert.KernelIdeal Cert.KernelIdeal.Gen Cert.Lib
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg BodyObligation)

variable {F : FTy → Type} [FloatOps F]

local notation "𝕄" => MT nD τ sig Unit (Elt F) ℕ (UR sig nD τ) ℕ

abbrev W0 (m : (ℓ : Loc nD τ sig) → Buf (Elt F) ℓ) (ρ : Dev nD → PrngReg) : Dev nD → Valuation τ sig (Elt F) :=
  fun c b => m ((c : Dev nD), b)

variable (m : (ℓ : Loc nD τ sig) → Buf (Elt F) ℓ) (ρ : Dev nD → PrngReg)

/-- A boundary's contents read at the TensorCore's references. -/
abbrev tcOf (W : Dev nD → Valuation τ sig (Elt F)) : (c : Dev nD) → (b : Ref sig .tc) → Buf (Elt F) ((c : Thread nD τ).loc b) :=
  fun c b => W c b

/-- The contents after a kernel region entered at `Wi` with proof data `d`: its arrays at what the region wrote back,
    every other buffer as it was. -/
def nxt {p : Fin 3} (Wi : Dev nD → Valuation τ sig (Elt F)) (d : (c : Dev nD) → Dat τ (Elt F) Unit ℕ (UR sig nD τ) ℕ (cfgs p) c)
    (c : Dev nD) : Valuation τ sig (Elt F) :=
  Pipeline.withArrays (cfgs p).spec c (Wi c) fun w => (d c).arrAt w (cfgs p).N

section
variable {p : Fin 3} (Wi : Dev nD → Valuation τ sig (Elt F))
  (d : (c : Dev nD) → Dat τ (Elt F) Unit ℕ (UR sig nD τ) ℕ (cfgs p) c) (c : Dev nD)

theorem nxt_arr (lf : Pipeline.LaunchFacts (nD := nD) (τ := τ) cfgs p) (w : Fin (cfgs p).W) :
    nxt Wi d c (Proc.devRef .tc (Pipeline.arrRef (cfgs p).spec w)) = (d c).arrAt w (cfgs p).N :=
  Pipeline.withArrays_arr _ lf.win.arr_inj c _ _ w
theorem nxt_of_ne (b : Ref sig .tc) (hb : ∀ w, Pipeline.arrRef (cfgs p).spec w ≠ b) :
    nxt Wi d c (Proc.devRef .tc b) = Wi c (Proc.devRef .tc b) :=
  Pipeline.withArrays_of_ne _ c _ _ b hb
/-- An input's array is left as the region found it. -/
theorem nxt_in (lf : Pipeline.LaunchFacts (nD := nD) (τ := τ) cfgs p) (w : Fin (cfgs p).W) (hin : ((cfgs p).win w).isOut = false) :
    nxt Wi d c (Proc.devRef .tc (Pipeline.arrRef (cfgs p).spec w)) = (d c).A w :=
  (nxt_arr Wi d c lf w).trans ((d c).arrAt_in w hin _)
end

abbrev V0 := tcOf (W0 m ρ)
abbrev W1 : Dev nD → Valuation τ sig (Elt F) := nxt (p := 0) (W0 m ρ) (Reg0.dat (V0 m ρ))
abbrev W2 : Dev nD → Valuation τ sig (Elt F) := fun c => StableHlo.after hostOps1 (W1 m ρ c)
abbrev W3 : Dev nD → Valuation τ sig (Elt F) := fun c => StableHlo.after hostOps1_1 (W2 m ρ c)
abbrev W4 : Dev nD → Valuation τ sig (Elt F) := fun c => StableHlo.after hostOps1_2 (W3 m ρ c)
abbrev V4 := tcOf (W4 m ρ)
abbrev W5 : Dev nD → Valuation τ sig (Elt F) := nxt (p := 1) (W4 m ρ) (Reg1.dat (V4 m ρ))
abbrev V5 := tcOf (W5 m ρ)
abbrev W6 : Dev nD → Valuation τ sig (Elt F) := nxt (p := 2) (W5 m ρ) (Reg2.dat (V5 m ρ))

/-- The three host stretches leave a buffer none of them writes as region 0 left it. -/
theorem W4_W1 (c : Dev nD) (r : Ref sig .tc) (h2 : r ∉ hostOps1_2_W) (h1 : r ∉ hostOps1_1_W) (h0 : r ∉ hostOps1_W) :
    W4 m ρ c (Proc.devRef .tc r) = W1 m ρ c (Proc.devRef .tc r) :=
  (StableHlo.after_of_writes_sub hostOps1_2 _ hostOps1_2_writes h2).trans <|
    (StableHlo.after_of_writes_sub hostOps1_1 _ hostOps1_1_writes h1).trans (StableHlo.after_of_writes_sub hostOps1 _ hostOps1_writes h0)

theorem V4_main_arg0 (c : Dev nD) : V4 m ρ c main_arg0 = m ((c : Thread nD τ).loc main_arg0) :=
  (W4_W1 m ρ c main_arg0 (by decide) (by decide) (by decide)).trans (nxt_in _ _ c launch0 0 rfl)
theorem V4_main_arg1 (c : Dev nD) : V4 m ρ c main_arg1 = m ((c : Thread nD τ).loc main_arg1) :=
  (W4_W1 m ρ c main_arg1 (by decide) (by decide) (by decide)).trans (nxt_in _ _ c launch0 1 rfl)
theorem V5_main_arg0 (c : Dev nD) : V5 m ρ c main_arg0 = m ((c : Thread nD τ).loc main_arg0) :=
  (nxt_in _ _ c launch1 0 rfl).trans (V4_main_arg0 m ρ c)
theorem W6_main_arg0 (c : Dev nD) : W6 m ρ c (Proc.devRef .tc main_arg0) = m ((c : Thread nD τ).loc main_arg0) :=
  (nxt_in _ _ c launch2 0 rfl).trans (V5_main_arg0 m ρ c)
theorem W6_main_arg1 (c : Dev nD) : W6 m ρ c (Proc.devRef .tc main_arg1) = m ((c : Thread nD τ).loc main_arg1) :=
  (nxt_of_ne _ _ c main_arg1 (by decide)).trans <| (nxt_in _ _ c launch1 1 rfl).trans (V4_main_arg1 m ρ c)
theorem W6_main_arg2 (c : Dev nD) : W6 m ρ c (Proc.devRef .tc main_arg2) = m ((c : Thread nD τ).loc main_arg2) :=
  (nxt_of_ne _ _ c main_arg2 (by decide)).trans <| (nxt_of_ne _ _ c main_arg2 (by decide)).trans <|
    (W4_W1 m ρ c main_arg2 (by decide) (by decide) (by decide)).trans (nxt_of_ne _ _ c main_arg2 (by decide))

def pdats : (p : Fin 3) → (c : Dev nD) → Dat τ (Elt F) Unit ℕ (UR sig nD τ) ℕ (Pipeline.pin (pcfgs (F := F)) adm p) c
  | ⟨0, _⟩ => fun c => Reg0.dat (V0 m ρ) c
  | ⟨1, _⟩ => fun c => Reg1.dat (V4 m ρ) c
  | ⟨2, _⟩ => fun c => Reg2.dat (V5 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev held (W : Dev nD → Valuation τ sig (Elt F)) (c : Dev nD) : sProp 𝕄 :=
  iprop(StableHlo.held (c : Thread nD τ) (Pipeline.ucRefs τ sig) (W c) ∗ R c)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- A kernel region as a segment entered from every unscoped buffer at `Wi` and left at `nxt Wi`. -/
def seg (p : Fin 3) (lf : Pipeline.LaunchFacts (nD := nD) (τ := τ) cfgs p) (Wi : Dev nD → Valuation τ sig (Elt F))
    (hb : ∀ c, BodyObligation (pdats m ρ p c) (defs₀ (F := F)) Variants.none () Set.univ)
    (ho : ∀ c t, (pdats m ρ p c).owed t = 0) (hr : ∀ c t, (pdats m ρ p c).recorded t = Set.univ)
    (hq : ∀ c w, (pdats m ρ p c).q w = fullShare)
    (hA : ∀ c w, (pdats m ρ p c).A w = tcOf Wi c (Pipeline.arrRef (cfgs p).spec w))
    (hi : ∀ c, Pipeline.ΦA (cfgs p).spec c ⊢ (pdats m ρ p c).Φ 0)
    (hl : ∀ c, (pdats m ρ p c).Φ (Fin.last (cfgs p).N) ⊢ Pipeline.ΦA (cfgs p).spec c) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p ho
  pre := held Wi
  post := held (nxt Wi (pdats m ρ p))
  X c := iprop(∃ r, prngReg c r)
  Y c := iprop(∃ r, prngReg c r)
  Z c := Pipeline.unscopedRest (Ix := Unit) (Name := ℕ) (U := UR sig nD τ) (Lvl := ℕ) (cfgs p).spec c (tcOf Wi c)
  hentry c := by
    rw [Pipeline.ownSems0_none]
    have hsplit := Pipeline.arrays_of_unscopedBufs (p := p) (pcfgs (F := F)) adm (pdats m ρ) lf.win lf.arr_whole c
      ((pdats m ρ p c).share_full (hq c)) (tcOf Wi c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_of_owes (pdats m ρ p c) () 0 (ho c 0) (hr c 0))
      iexact HO
    isplitl [Hp]; · iexact Hp
    iexact Hrest
  hin c := by
    refine .trans ?_ (hi c)
    unfold Pipeline.ΦA
    iintro ⟨Hp, -, Hr⟩
    isplitl [Hr]; · iexact Hr
    iexact Hp
  hout c := by
    rw [Pipeline.ownSems0_none]
    refine (hl c).trans ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m ρ) ((pdats m ρ p c).share_full (hq c))
      (tcOf Wi c) (tcOf (nxt Wi (pdats m ρ p)) c) ((pdats m ρ p c).arrAt · (cfgs p).N) (fun w => (nxt_arr Wi _ c lf w).symm)
      (fun b hb => nxt_of_ne Wi _ c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    iapply (owes_of_owesAt (pdats m ρ p c) () (Fin.last _) (ho c (Fin.last _)))
    iexact HO

/-- The entry function's six segments: region 0, the three stretches of host operations, regions 1 and 2. -/
abbrev segs : List (Pipeline.Seg (pcfgs (F := F)) adm (pdats m ρ) () defs₀ 𝒱₀ L lv) :=
  [ .region (seg m ρ 0 launch0 (W0 m ρ) (Reg0.body_obligation _) (Reg0.owed_zero _) (Reg0.recorded_univ _)
      (Reg0.q_full _) (Reg0.A_eq _) (Reg0.hin _) (Reg0.hout _)),
    .host (hseg hostOps1 hostOps1_sub hostOps1_fresh (W1 m ρ)),
    .host (hseg hostOps1_1 hostOps1_1_sub hostOps1_1_fresh (W2 m ρ)),
    .host (hseg hostOps1_2 hostOps1_2_sub hostOps1_2_fresh (W3 m ρ)),
    .region (seg m ρ 1 launch1 (W4 m ρ) (Reg1.body_obligation _) (Reg1.owed_zero _) (Reg1.recorded_univ _)
      (Reg1.q_full _) (Reg1.A_eq _) (Reg1.hin _) (Reg1.hout _)),
    .region (seg m ρ 2 launch2 (W5 m ρ) (Reg2.body_obligation _) (Reg2.owed_zero _) (Reg2.recorded_univ _)
      (Reg2.q_full _) (Reg2.A_eq _) (Reg2.hin _) (Reg2.hout _)) ]
theorem main_run (c : Dev nD) : main (F := F) c = Pipeline.Seg.run (segs m ρ) := by
  rw [main_chain c, Pipeline.Seg.run_eq_chain]; rfl

set_option backward.isDefEq.respectTransparency.types false in
/-- From any memory with zero counters, every weakly fair execution of the entry function terminates, nothing
    faulting, and every final memory holds each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := Rounds.initOf (Pipeline.cells cfgs cellOf_inj) (Pipeline.launchToks cfgs cellOf_inj))
    (hu₀ := by
      iintro Hu; imodintro
      isplitl [Hu]
      · iapply (show (ownU _ : sProp 𝕄) ⊢ BI.own (emb₁ _) from .rfl)
        iexact Hu
      iapply (show (BI.emp : sProp 𝕄) ⊢ bigSep Finset.univ (fun _ : Dev nD => (BI.emp : sProp 𝕄)) from by rw [BI.bigSep_emp_const])
      iempintro)
    (T₀ := held (W0 m ρ))
    (Tₙ := fun c => iprop(StableHlo.held (c : Thread nD τ) (Pipeline.ucRefs τ sig) (W6 m ρ c) ∗ ∃ r, prngReg c r))
    (hch := ⟨fun _ => .rfl, fun _ => .rfl, fun _ => .rfl, fun _ => .rfl, fun _ => .rfl, fun _ => .rfl, fun _ => sep_assoc'⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- Every final memory holds the three arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs (onTc (τ := τ) (main (F := F))) ⟨m, fun _ => 0, ρ⟩).mono (fun r h c =>
    ⟨(h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c)⟩) (run_all m ρ)

end Cert.KernelIdeal.Run

end
-- ==== Proof.Spec.lean ====
import Idealize.ShloMosaic.PureOps.Ideal
import Idealize.ShloMosaic.Lib.ValueIdx

noncomputable section

open scoped BigOperators

namespace Cert.Spec

open Idealize.ShloMosaic Idealize.ShloMosaic.ValueIdx

/-- An array of extended reals with three coordinates; a `Row` is one entry per batch and column. -/
abbrev Arr3 (a b c : Nat) : Type := (⟨3, ![a, b, c]⟩ : Shape).Idx → EReal

abbrev Row : Type := Fin 4 → Fin 2048 → EReal

abbrev rowOf (A : Arr3 4 1 2048) : Row := fun b j => A (ix3 b 0 j)

/-- The constants 4096, 4095, the deviation's offset, 2, 0 and -∞, each as the exact value of its binary word. -/
abbrev cN : EReal := Ideal.ofBits .f32 0x45800000#32
abbrev cN1 : EReal := Ideal.ofBits .f32 0x457FF000#32
abbrev cEps : EReal := Ideal.ofBits .f32 0x3A83126F#32
abbrev c2 : EReal := Ideal.ofBits .f32 0x40000000#32
abbrev c0 : EReal := Ideal.ofBits .f32 0x00000000#32
abbrev cNegInf : EReal := Ideal.ofBits .f32 0xFF800000#32

/-- The softmax over the 2048 rows, shifted by their maximum. -/
def maxQ (L : Fin 2048 → EReal) : EReal := (Finset.univ : Finset (Fin 2048)).fold max cNegInf L

def softmaxQ (L : Fin 2048 → EReal) (q : Fin 2048) : EReal :=
  Ideal.div (Ideal.exp (L q - maxQ L)) (∑ q' : Fin 2048, Ideal.exp (L q' - maxQ L))

/-- Column sums over the 4096 rows, of the entries and of their squares. -/
def colSum (A : Arr3 4 4096 2048) : Row := fun b j => ∑ n : Fin 4096, A (ix3 b n j)
def colSumSq (A : Arr3 4 4096 2048) : Row := fun b j => ∑ n : Fin 4096, A (ix3 b n j) * A (ix3 b n j)

def mulP (X : Arr3 4 4096 2048) (P : Arr3 4 2048 2048) (b : Fin 4) (n : Fin 4096) (m : Fin 2048) : EReal :=
  ∑ q : Fin 2048, X (ix3 b n q) * P (ix3 b q m)
def mulSqP (X : Arr3 4 4096 2048) (P : Arr3 4 2048 2048) (b : Fin 4) (n : Fin 4096) (m : Fin 2048) : EReal :=
  ∑ q : Fin 2048, (X (ix3 b n q) * X (ix3 b n q)) * P (ix3 b q m)

/-- The two results from the weights `P`: the weighted mean rescaled, and the weighted deviation. -/
def outY (X : Arr3 4 4096 2048) (P : Arr3 4 2048 2048) (mu s : Row) (b : Fin 4) (n : Fin 4096) (m : Fin 2048) : EReal :=
  mulP X P b n m * s b m + mu b m
def outYstd (X : Arr3 4 4096 2048) (P : Arr3 4 2048 2048) (s : Row) (b : Fin 4) (n : Fin 4096) (m : Fin 2048) : EReal :=
  Ideal.sqrt (max c0 (mulSqP X P b n m - mulP X P b n m * mulP X P b n m)) * s b m

/-- The column-sum arrangement: mean, clipped centred sum of squares, deviation and standardised squared norm from the
    sums `sy`, `sy2` alone; the distances from the raw product `xyRaw`. -/
def kMu (sy : Row) : Row := fun b m => Ideal.div (sy b m) cN

def kNum (sy sy2 : Row) : Row := fun b m => max c0 (sy2 b m - cN * kMu sy b m * kMu sy b m)

def kS (sy sy2 : Row) : Row := fun b m => Ideal.sqrt (Ideal.div (kNum sy sy2 b m) cN1) + cEps

def kYY (sy sy2 : Row) : Row := fun b m => Ideal.div (kNum sy sy2 b m) (kS sy sy2 b m * kS sy sy2 b m)

def xyRaw (X Y : Arr3 4 4096 2048) (b : Fin 4) (q m : Fin 2048) : EReal :=
  ∑ n : Fin 4096, X (ix3 b n q) * Y (ix3 b n m)

def kL2 (X Y : Arr3 4 4096 2048) (xx xsum mu s yy : Row) (b : Fin 4) (q m : Fin 2048) : EReal :=
  c0 - Ideal.sqrt (max c0 ((xx b q + yy b m) - c2 * Ideal.div (xyRaw X Y b q m - mu b m * xsum b q) (s b m)))

def kP (X Y : Arr3 4 4096 2048) (xx xsum mu s yy : Row) (b : Fin 4) (q m : Fin 2048) : EReal :=
  softmaxQ (fun q' => kL2 X Y xx xsum mu s yy b q' m) q

def kMuOf (Y : Arr3 4 4096 2048) : Row := kMu (colSum Y)
def kSOf (Y : Arr3 4 4096 2048) : Row := kS (colSum Y) (colSumSq Y)
def kYYOf (Y : Arr3 4 4096 2048) : Row := kYY (colSum Y) (colSumSq Y)
def kPOf (X Y : Arr3 4 4096 2048) : Arr3 4 2048 2048 :=
  fun j => kP X Y (colSumSq X) (colSum X) (kMuOf Y) (kSOf Y) (kYYOf Y) (j 0) (j 1) (j 2)
def kY (X Y : Arr3 4 4096 2048) (b : Fin 4) (n : Fin 4096) (m : Fin 2048) : EReal :=
  outY X (kPOf X Y) (kMuOf Y) (kSOf Y) b n m
def kYstd (X Y : Arr3 4 4096 2048) (b : Fin 4) (n : Fin 4096) (m : Fin 2048) : EReal :=
  outYstd X (kPOf X Y) (kSOf Y) b n m

/-- The centre-and-scale arrangement: every entry is centred and scaled first, then squared, multiplied and summed. -/
def rMu (Y : Arr3 4 4096 2048) : Row := fun b m => Ideal.div (∑ n : Fin 4096, Y (ix3 b n m)) cN

def rVar (Y : Arr3 4 4096 2048) : Row := fun b m =>
  Ideal.div (∑ n : Fin 4096, (Y (ix3 b n m) - rMu Y b m) * (Y (ix3 b n m) - rMu Y b m)) (cN - 1)

def rS (Y : Arr3 4 4096 2048) : Row := fun b m => Ideal.sqrt (rVar Y b m) + cEps

def rYn (Y : Arr3 4 4096 2048) (b : Fin 4) (n : Fin 4096) (m : Fin 2048) : EReal :=
  Ideal.div (Y (ix3 b n m) - rMu Y b m) (rS Y b m)
def rXX (X : Arr3 4 4096 2048) : Row := fun b q => ∑ n : Fin 4096, X (ix3 b n q) * X (ix3 b n q)
def rYY (Y : Arr3 4 4096 2048) : Row := fun b m => ∑ n : Fin 4096, rYn Y b n m * rYn Y b n m
def rXY (X Y : Arr3 4 4096 2048) (b : Fin 4) (q m : Fin 2048) : EReal :=
  ∑ n : Fin 4096, X (ix3 b n q) * rYn Y b n m

def rL2 (X Y : Arr3 4 4096 2048) (b : Fin 4) (q m : Fin 2048) : EReal :=
  -(Ideal.sqrt (max c0 ((rXX X b q + rYY Y b m) - c2 * rXY X Y b q m)))
def rPOf (X Y : Arr3 4 4096 2048) : Arr3 4 2048 2048 :=
  fun j => softmaxQ (fun q' => rL2 X Y (j 0) q' (j 2)) (j 1)
def rY (X Y : Arr3 4 4096 2048) (b : Fin 4) (n : Fin 4096) (m : Fin 2048) : EReal :=
  outY X (rPOf X Y) (rMu Y) (rS Y) b n m
def rYstd (X Y : Arr3 4 4096 2048) (b : Fin 4) (n : Fin 4096) (m : Fin 2048) : EReal :=
  outYstd X (rPOf X Y) (rS Y) b n m

end Cert.Spec

end
-- ==== Proof.KI.Val0.lean ====
import proofs.«401599_j70669391889130_3_alg».proof.Proof.KI.Reg0
import proofs.«401599_j70669391889130_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val0

open Cert.KernelIdeal Cert.KernelIdeal.Gen
open Idealize.ShloMosaic Idealize.ShloMosaic.TcCoe Idealize.ShloMosaic.ValueIdx
open Idealize.SL Idealize.SL.Sem
open Cert.Spec (rowOf)

variable (V : (c : Dev nD) → (b : Ref sig .tc) → Buf (Elt Ideal) ((c : Thread nD τ).loc b))

theorem colsum_apply (x : FVec Ideal S512x2048 .f32) (q : Fin 2048) :
    multiReduction .add [0] S2048 x 0x00000000#32 reduces_S512x2048_S2048 (.inl rfl) rfl (ix1 q) = ∑ r : Fin 512, x (ix2 r q) :=
  (Ideal.multiReduction_add_single (s := S512x2048) (t := S2048) (a := (0 : Fin 2)) x _ reduces_S512x2048_S2048
    (.inl rfl) rfl (ix1 q)).trans (Finset.sum_congr rfl fun k _ => congrArg x (Shape.idx_ext₂ rfl rfl))

theorem acc_sum (x : Vec Ideal S1x512x2048 .f32) (p : Vec Ideal S1x1x2048 .f32) (q : Fin 2048) :
    Reg0.acc2 x p (ix3 0 0 q) = p (ix3 0 0 q) + ∑ r : Fin 512, (fun a : EReal => a) (x (ix3 0 r q)) := by
  unfold Reg0.acc2 k0_pay9 k0_pay7
  rw [shapeCast_ab_1ab_apply, addf_apply, shapeCast_1ab_ab_apply, shapeCast_a_1a_apply, colsum_apply]
  simp only [shapeCast_1ab_ab_apply]

theorem acc_sumSq (x : Vec Ideal S1x512x2048 .f32) (p : Vec Ideal S1x1x2048 .f32) (q : Fin 2048) :
    Reg0.acc3 x p (ix3 0 0 q) = p (ix3 0 0 q) + ∑ r : Fin 512, (fun a : EReal => a * a) (x (ix3 0 r q)) := by
  unfold Reg0.acc3 k0_pay10 k0_pay7
  rw [shapeCast_ab_1ab_apply, addf_apply, shapeCast_1ab_ab_apply, shapeCast_a_1a_apply, colsum_apply]
  simp only [mulf_apply, shapeCast_1ab_ab_apply]

theorem zero_apply (q : Fin 2048) : (Reg0.zero2 (F := Ideal)) (ix3 0 0 q) = 0 := by
  unfold Reg0.zero2 k0_pay3
  rw [shapeCast_ab_1ab_apply, broadcast_apply]
  exact Ideal.ofBits_zero_f32

theorem fold_steps (A : Fin cfg0.N → EReal) (S : ℕ → EReal)
    (hfirst : ∀ t : Fin cfg0.N, t.val % 8 = 0 → A t = 0 + S t.val)
    (hnext : ∀ t : Fin cfg0.N, t.val % 8 ≠ 0 → A t = A ⟨t.val - 1, Nat.lt_of_le_of_lt (Nat.sub_le _ _) t.isLt⟩ + S t.val)
    (b : ℕ) : ∀ (k : ℕ) (hk : k < 8) (h : 8 * b + k < cfg0.N), A ⟨8 * b + k, h⟩ = ∑ j ∈ Finset.range (k + 1), S (8 * b + j)
  | 0, _, h => by
    rw [hfirst ⟨8 * b + 0, h⟩ (by show (8 * b + 0) % 8 = 0; omega), Finset.sum_range_one, zero_add]
  | k + 1, hk, h => by
    rw [hnext ⟨8 * b + (k + 1), h⟩ (by show (8 * b + (k + 1)) % 8 ≠ 0; omega), Finset.sum_range_succ]
    have e : (⟨8 * b + (k + 1) - 1, Nat.lt_of_le_of_lt (Nat.sub_le _ _) h⟩ : Fin cfg0.N) = ⟨8 * b + k, by omega⟩ := Fin.ext (by show 8 * b + (k + 1) - 1 = 8 * b + k; omega)
    rw [e, fold_steps A S hfirst hnext b k (by omega) (by omega)]

theorem batch_total (f : ℕ → ℕ → EReal) (b : ℕ) :
    ∑ j ∈ Finset.range 8, ∑ r : Fin 512, f ((8 * b + j) / 8) (512 * ((8 * b + j) % 8) + r.val) = ∑ n : Fin 4096, f b n.val := by
  rw [Finset.sum_range, ← Fintype.sum_prod_type' (f := fun (j : Fin 8) (r : Fin 512) => f ((8 * b + j.val) / 8) (512 * ((8 * b + j.val) % 8) + r.val))]
  refine Fintype.sum_equiv (finProdFinEquiv (m := 8) (n := 512)) _ _ fun ⟨j, r⟩ => ?_
  show f ((8 * b + j.val) / 8) (512 * ((8 * b + j.val) % 8) + r.val) = f b (r.val + 512 * j.val)
  rw [show (8 * b + j.val) / 8 = b by omega, show (8 * b + j.val) % 8 = j.val by omega, Nat.add_comm]

def colOf (A : Cert.Spec.Arr3 4 4096 2048) (g : EReal → EReal) (q : Fin 2048) (b n : ℕ) : EReal :=
  if h : b < 4 ∧ n < 4096 then g (A (ix3 ⟨b, h.1⟩ ⟨n, h.2⟩ q)) else 0

theorem index0 : ∀ t : Fin cfg0.N, win0_0.index t 0 = t.val / 8 ∧ win0_0.index t 1 = t.val % 8 ∧ win0_0.index t 2 = 0 :=
  (by decide +kernel : ∀ t : Fin grid0.N, win0_0.index t 0 = t.val / 8 ∧ win0_0.index t 1 = t.val % 8 ∧ win0_0.index t 2 = 0)
theorem index2 : ∀ t : Fin cfg0.N, win0_2.index t 0 = t.val / 8 ∧ win0_2.index t 1 = 0 ∧ win0_2.index t 2 = 0 :=
  (by decide +kernel : ∀ t : Fin grid0.N, win0_2.index t 0 = t.val / 8 ∧ win0_2.index t 1 = 0 ∧ win0_2.index t 2 = 0)

theorem idx_of_val {n0 n1 n2 : ℕ} (e : (⟨3, ![n0, n1, n2]⟩ : Shape).Idx) (a : Fin n0) (b : Fin n1) (c : Fin n2)
    (h0 : (e 0).val = a.val) (h1 : (e 1).val = b.val) (h2 : (e 2).val = c.val) : e = ix3 a b c := by
  funext i
  apply Fin.ext
  match i with
  | ⟨0, _⟩ => exact h0
  | ⟨1, _⟩ => exact h1
  | ⟨2, _⟩ => exact h2

/-- Eight blocks' column sums of `g`, added from zero, are the column sums of `g` over the batch's 4096 rows. -/
theorem col_sums (A : Cert.Spec.Arr3 4 4096 2048) (g : EReal → EReal) (ein : Fin cfg0.N → S1x512x2048.Idx → S4x4096x2048.Idx)
    (hi : ∀ t y a, (ein t y a).val = win0_0.index t a * S1x512x2048.size a + 1 * (y a).val)
    (acc : Vec Ideal S1x512x2048 .f32 → Vec Ideal S1x1x2048 .f32 → Vec Ideal S1x1x2048 .f32) (z : Vec Ideal S1x1x2048 .f32)
    (hacc : ∀ x p q, acc x p (ix3 0 0 q) = p (ix3 0 0 q) + ∑ r : Fin 512, g (x (ix3 0 r q)))
    (hz : ∀ q, z (ix3 0 0 q) = 0) (aft : Fin cfg0.N → Vec Ideal S1x1x2048 .f32)
    (hfirst : ∀ t, t.val % 8 = 0 → aft t = acc (fun y => A (ein t y)) z)
    (hnext : ∀ t, t.val % 8 ≠ 0 → aft t = acc (fun y => A (ein t y)) (aft ⟨t.val - 1, Nat.lt_of_le_of_lt (Nat.sub_le _ _) t.isLt⟩))
    (emb : Fin cfg0.N → S1x1x2048.Idx ↪ S4x1x2048.Idx)
    (he : ∀ t y a, (emb t y a).val = win0_2.index t a * S1x1x2048.size a + 1 * (y a).val)
    (fl : Fin cfg0.N → Bool) (hfl : ∀ t, fl t = true ↔ t.val % 8 = 7) (arr : ℕ → Cert.Spec.Arr3 4 1 2048)
    (H : ∀ G : Cert.Spec.Arr3 4 1 2048, (∀ t, fl t = true → aft t = fun y => G (emb t y)) →
      ∀ (n : ℕ) (t : Fin cfg0.N) (i : S4x1x2048.Idx), t.val < n → fl t = true → i ∈ Finset.univ.map (emb t) → arr n i = G i)
    (b : Fin 4) (q : Fin 2048) : arr cfg0.N (ix3 b 0 q) = ∑ n : Fin 4096, g (A (ix3 b n q)) := by
  have hN : cfg0.N = 32 := N_0
  have ht : 8 * b.val + 7 < cfg0.N := by have := b.isLt; omega
  have hemb : ∀ (t : Fin cfg0.N) hb y, emb t y = ix3 ⟨t.val / 8, hb⟩ 0 (y 2) := fun t hb y => by
    obtain ⟨i0, i1, i2⟩ := index2 t
    have : (y 0).val < 1 := (y 0).isLt
    have : (y 1).val < 1 := (y 1).isLt
    exact idx_of_val _ _ _ _ (by rw [he, i0]; show t.val / 8 * 1 + 1 * (y 0).val = t.val / 8; omega)
      (by rw [he, i1]; show 0 * 1 + 1 * (y 1).val = 0; omega) (by rw [he, i2]; show 0 * 2048 + 1 * (y 2).val = (y 2).val; omega)
  have hrow : ∀ (t : Fin cfg0.N) (h7 : t.val % 8 = 7) (hb : t.val / 8 < 4) (q : Fin 2048),
      aft t (ix3 0 0 q) = ∑ n : Fin 4096, g (A (ix3 ⟨t.val / 8, hb⟩ n q)) := fun t h7 hb q => by
    have hs : ∀ u : Fin cfg0.N, ∑ r : Fin 512, g (A (ein u (ix3 0 r q))) = ∑ r : Fin 512, colOf A g q (u.val / 8) (512 * (u.val % 8) + r.val) := fun u =>
      Finset.sum_congr rfl fun r _ => by
        obtain ⟨i0, i1, i2⟩ := index0 u
        have hb : u.val / 8 < 4 := by have := u.isLt; omega
        have hn : 512 * (u.val % 8) + r.val < 4096 := by have := r.isLt; omega
        rw [idx_of_val (ein u (ix3 0 r q)) ⟨u.val / 8, hb⟩ ⟨512 * (u.val % 8) + r.val, hn⟩ q
          (by rw [hi, i0]; show u.val / 8 * 1 + 1 * 0 = u.val / 8; omega)
          (by rw [hi, i1]; show u.val % 8 * 512 + 1 * r.val = 512 * (u.val % 8) + r.val; omega)
          (by rw [hi, i2]; show 0 * 2048 + 1 * q.val = q.val; omega)]
        unfold colOf; rw [dif_pos ⟨hb, hn⟩]
    have h : 8 * (t.val / 8) + 7 < cfg0.N := by have := t.isLt; omega
    have e : t = ⟨8 * (t.val / 8) + 7, h⟩ := Fin.ext (by show t.val = 8 * (t.val / 8) + 7; omega)
    have key := fold_steps (fun t => aft t (ix3 0 0 q)) (fun n => ∑ r : Fin 512, colOf A g q (n / 8) (512 * (n % 8) + r.val))
      (fun u hu => by
        show aft u (ix3 0 0 q) = _
        rw [hfirst u hu, hacc, hz]; exact congrArg (0 + ·) (hs u))
      (fun u hu => by
        show aft u (ix3 0 0 q) = _
        rw [hnext u hu, hacc]; exact congrArg (_ + ·) (hs u))
      (t.val / 8) 7 (by omega) h
    refine (congrArg (fun u => aft u (ix3 0 0 q)) e).trans (key.trans ((batch_total (colOf A g q) (t.val / 8)).trans
      (Finset.sum_congr rfl fun n _ => ?_)))
    unfold colOf; rw [dif_pos ⟨hb, n.isLt⟩]
  refine H (fun i => ∑ n : Fin 4096, g (A (ix3 (i 0) n (i 2)))) (fun t hf => funext fun y => ?_) cfg0.N ⟨8 * b.val + 7, ht⟩ (ix3 b 0 q) ht
    ((hfl _).mpr (by show (8 * b.val + 7) % 8 = 7; omega))
    (Finset.mem_map.mpr ⟨ix3 0 0 q, Finset.mem_univ _, (hemb _ (by show (8 * b.val + 7) / 8 < 4; omega) _).trans
      (congrArg (ix3 · 0 q) (Fin.ext (by show (8 * b.val + 7) / 8 = b.val; omega)))⟩)
  have hb : t.val / 8 < 4 := by have := t.isLt; omega
  rw [hemb t hb y, idx_of_val y 0 0 (y 2) (by have : (y 0).val < 1 := (y 0).isLt; show (y 0).val = 0; omega)
    (by have : (y 1).val < 1 := (y 1).isLt; show (y 1).val = 0; omega) rfl]
  exact hrow t ((hfl t).mp hf) hb (y 2)

theorem sumX (c : Dev nD) (b : Fin 4) (q : Fin 2048) :
    (Reg0.dat V c).arrAt 2 cfg0.N (ix3 b 0 q) = Cert.Spec.colSum (V c main_arg0) b q :=
  col_sums (V c main_arg0) (fun a => a) (fun t => ((cfg0.win 0).blk t).view.emb) (fun _ _ _ => rfl)
    _ _ acc_sum zero_apply _ (Reg0.after_first2 V c) (Reg0.after_next2 V c)
    (fun t => ((cfg0.win 2).blk t).view.emb) (fun _ _ _ => rfl) _ flush0_2 _
    ((Reg0.dat V c).arrAt_apply_of_mem 2) b q

theorem sumXX (c : Dev nD) (b : Fin 4) (q : Fin 2048) :
    (Reg0.dat V c).arrAt 3 cfg0.N (ix3 b 0 q) = Cert.Spec.colSumSq (V c main_arg0) b q :=
  col_sums (V c main_arg0) (fun a => a * a) (fun t => ((cfg0.win 0).blk t).view.emb) (fun _ _ _ => rfl)
    _ _ acc_sumSq zero_apply _ (Reg0.after_first3 V c) (Reg0.after_next3 V c)
    (fun t => ((cfg0.win 3).blk t).view.emb) (fun _ _ _ => rfl) _ flush0_3 _
    ((Reg0.dat V c).arrAt_apply_of_mem 3) b q

theorem sumY (c : Dev nD) (b : Fin 4) (q : Fin 2048) :
    (Reg0.dat V c).arrAt 4 cfg0.N (ix3 b 0 q) = Cert.Spec.colSum (V c main_arg1) b q :=
  col_sums (V c main_arg1) (fun a => a) (fun t => ((cfg0.win 1).blk t).view.emb) (fun _ _ _ => rfl)
    _ _ acc_sum zero_apply _ (Reg0.after_first4 V c) (Reg0.after_next4 V c)
    (fun t => ((cfg0.win 4).blk t).view.emb) (fun _ _ _ => rfl) _ flush0_4 _
    ((Reg0.dat V c).arrAt_apply_of_mem 4) b q

theorem sumYY (c : Dev nD) (b : Fin 4) (q : Fin 2048) :
    (Reg0.dat V c).arrAt 5 cfg0.N (ix3 b 0 q) = Cert.Spec.colSumSq (V c main_arg1) b q :=
  col_sums (V c main_arg1) (fun a => a * a) (fun t => ((cfg0.win 1).blk t).view.emb) (fun _ _ _ => rfl)
    _ _ acc_sumSq zero_apply _ (Reg0.after_first5 V c) (Reg0.after_next5 V c)
    (fun t => ((cfg0.win 5).blk t).view.emb) (fun _ _ _ => rfl) _ flush0_5 _
    ((Reg0.dat V c).arrAt_apply_of_mem 5) b q

end Cert.KernelIdeal.Val0

end
-- ==== Proof.KI.Pay1.lean ====
import proofs.«401599_j70669391889130_3_alg».proof.Proof.Gen.KernelIdeal.Skeleton
import proofs.«401599_j70669391889130_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Pay1

open Cert.KernelIdeal Cert.KernelIdeal.Gen
open Idealize.ShloMosaic Idealize.ShloMosaic.ValueIdx

theorem dot_apply (a : FVec Ideal S512x2048 .bf16) (b : FVec Ideal S512x256 .bf16) (q : Fin 2048) (j : Fin 256) :
    matmul dot_S512x2048_S512x256_S2048x256_0_0_1_1_n_n none a b (constant (F := Ideal) S2048x256 .f32 0x00000000#32) (ix2 q j)
      = ∑ r : Fin 512, a (ix2 r q) * b (ix2 r j) := by
  refine (Ideal.matmul_constant_zero_apply dot_S512x2048_S512x256_S2048x256_0_0_1_1_n_n none a b (ix2 q j)).trans ?_
  rw [← Equiv.sum_comp (contrEquiv1 dot_S512x2048_S512x256_S2048x256_0_0_1_1_n_n 512 rfl rfl).symm]
  refine Finset.sum_congr rfl fun k _ => ?_
  have hk := contrEquiv1_symm_val dot_S512x2048_S512x256_S2048x256_0_0_1_1_n_n 512 rfl rfl k
  refine congrArg₂ (· * ·) (congrArg a (Shape.idx_ext₂ ((dot_S512x2048_S512x256_S2048x256_0_0_1_1_n_n.lhsIdx_val_of_single rfl _ _).trans hk) ?_))
    (congrArg b (Shape.idx_ext₂ ((dot_S512x2048_S512x256_S2048x256_0_0_1_1_n_n.rhsIdx_val_of_single rfl _ _).trans hk) ?_))
  · unfold DotDims.lhsIdx
    rw [dif_neg (show ¬(1 : Fin S512x2048.rank) ∈ dot_S512x2048_S512x256_S2048x256_0_0_1_1_n_n.lhsBatch by decide),
      dif_pos (show (1 : Fin S512x2048.rank) ∈ dot_S512x2048_S512x256_S2048x256_0_0_1_1_n_n.lhsNonContracting by decide)]
    rfl
  · unfold DotDims.rhsIdx
    rw [dif_neg (show ¬(1 : Fin S512x256.rank) ∈ dot_S512x2048_S512x256_S2048x256_0_0_1_1_n_n.rhsBatch by decide),
      dif_pos (show (1 : Fin S512x256.rank) ∈ dot_S512x2048_S512x256_S2048x256_0_0_1_1_n_n.rhsNonContracting by decide)]
    rfl

theorem acc_apply (x : Vec Ideal S1x512x2048 .f32) (y : Vec Ideal S1x512x256 .f32) (prev : Vec Ideal S2048x256 .f32)
    (q : Fin 2048) (j : Fin 256) :
    k1_pay2 x y prev (ix2 q j) = prev (ix2 q j) + ∑ r : Fin 512, x (ix3 0 r q) * y (ix3 0 r j) := by
  unfold k1_pay2
  rw [shapeCast_self]
  refine (addf_apply _ _ _).trans ?_
  rw [dot_apply]
  refine congrArg (prev (ix2 q j) + ·) (Finset.sum_congr rfl fun r _ => ?_)
  rw [truncf_apply, truncf_apply, shapeCast_1ab_ab_apply, shapeCast_1ab_ab_apply]

section Layout
variable {α : Type}

theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem row_apply {a b : ℕ} (v : (⟨3, ![1, 1, b]⟩ : Shape).Idx → α)
    (h1 : (⟨3, ![1, 1, b]⟩ : Shape).ShapeCasts ⟨2, ![1, b]⟩) (h2 : (⟨2, ![1, b]⟩ : Shape).Broadcasts ⟨2, ![a, b]⟩)
    (p : Fin a) (c : Fin b) :
    broadcastTo ⟨2, ![a, b]⟩ (shapeCast ⟨2, ![1, b]⟩ v h1) h2 (ix2 p c) = v (ix3 (0 : Fin 1) (0 : Fin 1) c) := by
  rw [broadcastTo_1b_ab_apply, shapeCast_1ab_ab_apply]

theorem col_apply {a b : ℕ} (v : (⟨3, ![1, 1, a]⟩ : Shape).Idx → α)
    (h1 : (⟨3, ![1, 1, a]⟩ : Shape).ShapeCasts ⟨2, ![1, a]⟩) (h2 : (⟨2, ![1, a]⟩ : Shape).Transposes [1, 0] ⟨2, ![a, 1]⟩)
    (h3 : (⟨2, ![a, 1]⟩ : Shape).Broadcasts ⟨2, ![a, b]⟩) (p : Fin a) (c : Fin b) :
    broadcastTo ⟨2, ![a, b]⟩ (transpose ⟨2, ![a, 1]⟩ [1, 0] (shapeCast ⟨2, ![1, a]⟩ v h1) h2) h3 (ix2 p c)
      = v (ix3 (0 : Fin 1) (0 : Fin 1) p) := by
  rw [broadcastTo_a1_ab_apply, transpose_ix2_apply, shapeCast_1ab_ab_apply]

theorem lane_apply {a b : ℕ} (v : (⟨1, ![b]⟩ : Shape).Idx → α)
    (h1 : (⟨1, ![b]⟩ : Shape).ShapeCasts ⟨2, ![1, b]⟩) (h2 : (⟨2, ![1, b]⟩ : Shape).Broadcasts ⟨2, ![a, b]⟩)
    (p : Fin a) (c : Fin b) :
    broadcastTo ⟨2, ![a, b]⟩ (shapeCast ⟨2, ![1, b]⟩ v h1) h2 (ix2 p c) = v (ix1 c) := by
  rw [broadcastTo_1b_ab_apply, shapeCast_a_1a_apply]

end Layout

theorem colmax_apply (src : FVec Ideal S2048x256 .f32) (h : S2048x256.Reduces [0] S256) (hφ : FKind.Formats .f32)
    (hacc : (0xFF800000#32 : BitVec 32) = FKind.maximumf.neutral .f32 hφ) (j : Fin 256) :
    multiReduction .maximumf [0] S256 src 0xFF800000#32 h hφ hacc (ix1 j) = Cert.Spec.maxQ (fun q' => src (ix2 q' j)) := by
  refine (Ideal.multiReduction_maximumf_single src _ h hφ hacc (ix1 j)).trans ?_
  have e : (src ∘ h.lift (ix1 j)) = fun q' : Fin 2048 => src (ix2 q' j) :=
    funext fun k => congrArg src (Shape.idx_ext₂ rfl rfl)
  rw [e]; rfl

theorem colsum_apply (src : FVec Ideal S2048x256 .f32) (h : S2048x256.Reduces [0] S256) (hφ : FKind.Formats .f32)
    (hacc : (0x00000000#32 : BitVec 32) = FKind.add.neutral .f32 hφ) (j : Fin 256) :
    multiReduction .add [0] S256 src 0x00000000#32 h hφ hacc (ix1 j) = ∑ q' : Fin 2048, src (ix2 q' j) := by
  refine (Ideal.multiReduction_add_single src _ h hφ hacc (ix1 j)).trans ?_
  exact Finset.sum_congr rfl fun k _ => congrArg src (Shape.idx_ext₂ rfl rfl)

theorem sqrt_apply {s : Shape} {φ : FTy} (a : FVec Ideal s φ) (i : s.Idx) : sqrt a i = Ideal.sqrt (a i) := rfl
theorem exp_apply {s : Shape} {φ : FTy} (a : FVec Ideal s φ) (i : s.Idx) : exp a i = Ideal.exp (a i) := rfl

def negD (slab : Vec Ideal S2048x256 .f32) (mu s yy : Vec Ideal S1x1x256 .f32) (xx xsum : Vec Ideal S1x1x2048 .f32)
    (j : Fin 256) (q' : Fin 2048) : EReal :=
  Cert.Spec.c0 - Ideal.sqrt (max Cert.Spec.c0 ((xx (ix3 0 0 q') + yy (ix3 0 0 j))
    - Cert.Spec.c2 * Ideal.div (slab (ix2 q' j) - mu (ix3 0 0 j) * xsum (ix3 0 0 q')) (s (ix3 0 0 j))))

theorem k1_pay4_apply (slab : Vec Ideal S2048x256 .f32) (mu s yy : Vec Ideal S1x1x256 .f32) (xx xsum : Vec Ideal S1x1x2048 .f32)
    (q : Fin 2048) (j : Fin 256) :
    k1_pay4 slab mu s yy xx xsum (ix2 q j)
      = Ideal.exp (negD slab mu s yy xx xsum j q - Cert.Spec.maxQ (negD slab mu s yy xx xsum j)) := by
  unfold k1_pay4
  rw [exp_apply, subf_apply, lane_apply]
  refine congrArg₂ (fun u v => Ideal.exp (u - v)) ?_
    ((colmax_apply _ _ _ _ j).trans (congrArg Cert.Spec.maxQ (funext fun q' => ?_))) <;>
  · beta_reduce
    unfold negD
    rw [subf_apply, sqrt_apply, maximumf_apply, subf_apply, addf_apply, mulf_apply, divf_apply, subf_apply, mulf_apply,
      col_apply, row_apply, row_apply, col_apply, row_apply]
    rfl

theorem k1_pay5_apply (slab : Vec Ideal S2048x256 .f32) (mu s yy : Vec Ideal S1x1x256 .f32) (xx xsum : Vec Ideal S1x1x2048 .f32)
    (q : Fin 2048) (j : Fin 256) :
    k1_pay5 slab mu s yy xx xsum (ix2 q j)
      = ∑ q' : Fin 2048, Ideal.exp (negD slab mu s yy xx xsum j q' - Cert.Spec.maxQ (negD slab mu s yy xx xsum j)) := by
  unfold k1_pay5
  rw [lane_apply]
  refine (colsum_apply _ _ _ _ j).trans ?_
  exact Finset.sum_congr rfl fun q' _ => k1_pay4_apply slab mu s yy xx xsum q' j

theorem weights_apply (slab : Vec Ideal S2048x256 .f32) (mu s yy : Vec Ideal S1x1x256 .f32) (xx xsum : Vec Ideal S1x1x2048 .f32)
    (q : Fin 2048) (j : Fin 256) :
    k1_pay3 (k1_pay4 slab mu s yy xx xsum) (k1_pay5 slab mu s yy xx xsum) (ix3 0 q j)
      = Cert.Spec.softmaxQ (fun q' => Cert.Spec.c0 - Ideal.sqrt (max Cert.Spec.c0 ((xx (ix3 0 0 q') + yy (ix3 0 0 j))
          - Cert.Spec.c2 * Ideal.div (slab (ix2 q' j) - mu (ix3 0 0 j) * xsum (ix3 0 0 q')) (s (ix3 0 0 j))))) q := by
  unfold k1_pay3
  rw [shapeCast_ab_1ab_apply, truncf_apply, divf_apply, k1_pay4_apply, k1_pay5_apply]
  rfl

end Cert.KernelIdeal.Pay1

end
-- ==== Proof.KI.Val1.lean ====
import proofs.«401599_j70669391889130_3_alg».proof.Proof.KI.Reg1
import proofs.«401599_j70669391889130_3_alg».proof.Proof.KI.Pay1
import proofs.«401599_j70669391889130_3_alg».proof.Proof.Spec
import Idealize.ShloMosaic.Lib.Pipeline.Value
import Idealize.ShloMosaic.Lib.ValueIdx
import Idealize.ShloMosaic.Lib.ValueLayout
import Idealize.ShloMosaic.PureOps.Ideal.Laws
import Mathlib.Logic.Equiv.Fin.Basic
import Mathlib.Algebra.BigOperators.Fin
import Mathlib.Data.Fintype.BigOperators

set_option maxRecDepth 16384

noncomputable section

open scoped BigOperators

namespace Cert.KernelIdeal.Val1

open Cert.KernelIdeal Cert.KernelIdeal.Gen
open Idealize.ShloMosaic Idealize.ShloMosaic.TcCoe Idealize.ShloMosaic.ValueIdx
open Idealize.SL Idealize.SL.Sem
open Cert.Spec (rowOf)

variable (V : (c : Dev nD) → (b : Ref sig .tc) → Buf (Elt Ideal) ((c : Thread nD τ).loc b))

theorem idx_facts : ∀ t : Fin cfg1.N,
    (win1_0.index t 0 = t.val / 64 ∧ win1_0.index t 1 = t.val / 8 % 8 ∧ win1_0.index t 2 = 0)
    ∧ (win1_1.index t 0 = t.val / 64 ∧ win1_1.index t 1 = t.val / 8 % 8 ∧ win1_1.index t 2 = t.val % 8)
    ∧ (win1_2.index t 0 = t.val / 64 ∧ win1_2.index t 1 = 0 ∧ win1_2.index t 2 = 0)
    ∧ (win1_4.index t 0 = t.val / 64 ∧ win1_4.index t 1 = 0 ∧ win1_4.index t 2 = t.val % 8)
    ∧ (win1_7.index t 0 = t.val / 64 ∧ win1_7.index t 1 = 0
        ∧ (t.val / 8 % 8 = 7 → win1_7.index t 2 = t.val % 8)) :=
  (by decide +kernel : ∀ t : Fin grid1.N, _)

theorem flush_iff : ∀ t : Fin cfg1.N, (cfg1.win 7).flush t = true ↔ t.val / 8 % 8 = 7 :=
  (by decide +kernel : ∀ t : Fin grid1.N, win1_7.flush t = true ↔ t.val / 8 % 8 = 7)

def at3 {a b d : ℕ} (A : Cert.Spec.Arr3 a b d) (i j k : ℕ) : EReal :=
  if h : i < a ∧ j < b ∧ k < d then A (ix3 ⟨i, h.1⟩ ⟨j, h.2.1⟩ ⟨k, h.2.2⟩) else 0

theorem at3_eq {a b d : ℕ} (A : Cert.Spec.Arr3 a b d) (x : (⟨3, ![a, b, d]⟩ : Shape).Idx) (i j k : ℕ)
    (h0 : (x 0).val = i) (h1 : (x 1).val = j) (h2 : (x 2).val = k) : at3 A i j k = A x := by
  subst h0 h1 h2
  unfold at3
  rw [dif_pos ⟨(x 0).isLt, (x 1).isLt, (x 2).isLt⟩]
  exact congrArg A (eq_ix3 x).symm

/-- An entry of a 512-row input block, at block index `idx`, is the array's entry at the block's offset. -/
theorem blk_read {n : ℕ} (A : Cert.Spec.Arr3 4 4096 2048) (idx : Fin 3 → ℕ) (r : Fin 512) (j : Fin n) (e : S4x4096x2048.Idx)
    (h0 : (e 0).val = idx 0 * 1 + 1 * 0) (h1 : (e 1).val = idx 1 * 512 + 1 * r.val) (h2 : (e 2).val = idx 2 * n + 1 * j.val)
    (b nt m : ℕ) (hb : idx 0 = b) (hnt : idx 1 = nt) (hm : idx 2 * n + j.val = m) : A e = at3 A b (512 * nt + r.val) m :=
  (at3_eq A e _ _ _ (by omega) (by omega) (by omega)).symm

theorem blk_prod (c : Dev nD) (t : ℕ) (ht : t < cfg1.N) (q : Fin 2048) (j : Fin 256) :
    ∑ r : Fin 512, Reg1.xblk V c ⟨t, ht⟩ (ix3 0 r q) * Reg1.yblk V c ⟨t, ht⟩ (ix3 0 r j)
      = ∑ r : Fin 512, at3 (V c main_arg0) (t / 64) (512 * (t / 8 % 8) + r.val) q.val
          * at3 (V c main_arg1) (t / 64) (512 * (t / 8 % 8) + r.val) (256 * (t % 8) + j.val) := by
  obtain ⟨⟨a0, a1, a2⟩, ⟨b0, b1, b2⟩, -⟩ := idx_facts ⟨t, ht⟩
  replace b2 : win1_1.index ⟨t, ht⟩ 2 = t % 8 := b2
  exact Finset.sum_congr rfl fun r _ => congrArg₂ (· * ·)
    (blk_read (V c main_arg0) (win1_0.index ⟨t, ht⟩) r q _ rfl rfl rfl _ _ _ a0 a1 (by omega))
    (blk_read (V c main_arg1) (win1_1.index ⟨t, ht⟩) r j _ rfl rfl rfl _ _ _ b0 b1 (by omega))

/-- An entry of a one-row input block, at block index `idx`, is the array's entry in row `idx 0` at the block's column offset. -/
theorem row_read {n : ℕ} (A : S4x1x2048.Idx → EReal) (idx : Fin 3 → ℕ) (j : Fin n) (e : S4x1x2048.Idx)
    (h0 : (e 0).val = idx 0 * 1 + 1 * 0) (h1 : (e 1).val = idx 1 * 1 + 1 * 0) (h2 : (e 2).val = idx 2 * n + 1 * j.val)
    (b : Fin 4) (k : Fin 2048) (hb : b.val = idx 0) (h1' : idx 1 = 0) (hk : k.val = idx 2 * n + j.val) : A e = A (ix3 b 0 k) :=
  congrArg A (funext fun a => Fin.ext (match a with
    | ⟨0, _⟩ => by show (e 0).val = b.val; omega
    | ⟨1, _⟩ => by show (e 1).val = 0; omega
    | ⟨2, _⟩ => by show (e 2).val = k.val; omega))

theorem pay1_apply (y : S2048x256.Idx) : k1_pay1 (F := Ideal) y = 0 := by
  unfold k1_pay1
  rw [shapeCast_self]
  show Ideal.ofBits .f32 0x00000000#32 = 0
  exact Ideal.ofBits_zero_f32

theorem slab_emb (i : grid1.Coords) (q : Fin 2048) (j : Fin 256) (y : S2048x2048.Idx)
    (h0 : (y 0).val = q.val) (h1 : (y 1).val = 256 * (i 2).val + j.val) :
    (Reg1.slab i).emb (ix2 q j) = y := by
  funext a
  apply Fin.ext
  rw [Rect.emb_apply]
  match a with
  | ⟨0, _⟩ => show k1_off2 i 0 + 1 * q.val = (y 0).val; rw [k1_off2_eq]; show 0 + 1 * q.val = _; omega
  | ⟨1, _⟩ => show k1_off2 i 1 + 1 * j.val = (y 1).val; rw [k1_off2_eq]; show 256 * (i 2).val + 1 * j.val = _; omega

def partXY (X Y : Cert.Spec.Arr3 4 4096 2048) (b nt q m : ℕ) : EReal :=
  ∑ k ∈ Finset.range (nt + 1), ∑ r : Fin 512, at3 X b (512 * k + r.val) q * at3 Y b (512 * k + r.val) m

theorem acc_inv (c : Dev nD) (n : ℕ) : ∀ (hn : n ≤ cfg1.N) (t : ℕ), t < n → n ≤ t + 8 →
    ∀ (q : Fin 2048) (j : Fin 256) (y : S2048x2048.Idx), (y 0).val = q.val → (y 1).val = 256 * (t % 8) + j.val →
      Reg1.accBefore V c n hn y
        = partXY (V c main_arg0) (V c main_arg1) (t / 64) (t / 8 % 8) q.val (256 * (t % 8) + j.val) := by
  induction n with
  | zero => intro _ t ht; exact absurd ht (Nat.not_lt_zero _)
  | succ n ih =>
    intro hn t ht hle q j y hy0 hy1
    have hmt : ((grid1.coords ⟨n, hn⟩) 2).val = n % 8 := Reg1.hmt ⟨n, hn⟩
    have hjl := j.isLt
    by_cases htn : t = n
    · subst htn
      have hy : (Reg1.slab (grid1.coords ⟨t, hn⟩)).emb (ix2 q j) = y :=
        slab_emb (grid1.coords ⟨t, hn⟩) q j y hy0 (by rw [hmt]; exact hy1)
      by_cases hc : k1_cond1 (grid1.coords ⟨t, hn⟩) = 1#1
      · refine (congrFun (Reg1.accAt_reset V c ⟨t, hn⟩ hc) y).trans ?_
        rw [← hy, Rect.overlay_emb, Pay1.acc_apply, pay1_apply, zero_add, blk_prod, (Reg1.hcond1 ⟨t, hn⟩).mp hc]
        unfold partXY; rw [Finset.sum_range_one]
      · have hnt : t / 8 % 8 ≠ 0 := fun h => hc ((Reg1.hcond1 ⟨t, hn⟩).mpr h)
        refine (congrFun (Reg1.accAt_acc V c ⟨t, hn⟩ hc) y).trans ?_
        rw [← hy, Rect.overlay_emb, Pay1.acc_apply]
        have hprev : View.ld (Reg1.accBefore V c t (Nat.le_of_lt hn)) (Reg1.slab (grid1.coords ⟨t, hn⟩)) (ix2 q j) = _ :=
          (congrArg (Reg1.accBefore V c t (Nat.le_of_lt hn)) hy).trans
            (ih (Nat.le_of_lt hn) (t - 8) (by omega) (by omega) q j y hy0 (by rw [hy1]; omega))
        obtain ⟨nt', hnt'⟩ : ∃ nt', t / 8 % 8 = nt' + 1 := ⟨t / 8 % 8 - 1, by omega⟩
        rw [hprev, blk_prod, show (t - 8) / 64 = t / 64 by omega, show (t - 8) / 8 % 8 = nt' by omega, show (t - 8) % 8 = t % 8 by omega,
          hnt']
        exact (Finset.sum_range_succ _ _).symm
    · have hnot : y ∉ (Reg1.slab (grid1.coords ⟨n, hn⟩)).set := by
        rw [Reg1.mem_slab, hmt]; omega
      obtain ⟨P, hP⟩ : ∃ P, Reg1.accBefore V c (n + 1) hn = (Reg1.slab (grid1.coords ⟨n, hn⟩)).overlay (Reg1.accBefore V c n (Nat.le_of_lt hn)) P :=
        if hc : k1_cond1 (grid1.coords ⟨n, hn⟩) = 1#1 then ⟨_, Reg1.accAt_reset V c ⟨n, hn⟩ hc⟩ else ⟨_, Reg1.accAt_acc V c ⟨n, hn⟩ hc⟩
      rw [hP, Rect.overlay_of_not_mem _ _ _ hnot]
      exact ih (Nat.le_of_lt hn) t (by omega) (by omega) q j y hy0 hy1

theorem sum_blocks (f : ℕ → EReal) :
    ∑ k ∈ Finset.range 8, ∑ r : Fin 512, f (512 * k + r.val) = ∑ n : Fin 4096, f n.val := by
  rw [Finset.sum_range]
  refine Eq.trans ?_ (Equiv.sum_comp (finProdFinEquiv (m := 8) (n := 512)) (fun n : Fin (8 * 512) => f n.val))
  rw [Fintype.sum_prod_type]
  refine Finset.sum_congr rfl fun k _ => Finset.sum_congr rfl fun r _ => ?_
  show f (512 * k.val + r.val) = f (finProdFinEquiv (k, r)).val
  rw [finProdFinEquiv_apply_val, Nat.add_comm]

theorem partXY_full (X Y : Cert.Spec.Arr3 4 4096 2048) (b : Fin 4) (q m : Fin 2048) :
    partXY X Y b.val 7 q.val m.val = Cert.Spec.xyRaw X Y b q m := by
  unfold partXY Cert.Spec.xyRaw
  refine (sum_blocks (fun n => at3 X b.val n q.val * at3 Y b.val n m.val)).trans ?_
  refine Finset.sum_congr rfl fun n _ => ?_
  show at3 X b.val n.val q.val * at3 Y b.val n.val m.val = _
  rw [at3_eq X (ix3 b n q) _ _ _ rfl rfl rfl, at3_eq Y (ix3 b n m) _ _ _ rfl rfl rfl]

abbrev G (c : Dev nD) : S4x2048x2048.Idx → EReal := fun i =>
  Cert.Spec.kP (V c main_arg0) (V c main_arg1) (rowOf (V c main_v0_1)) (rowOf (V c main_v0_0)) (rowOf (V c main_v2))
    (rowOf (V c main_v12)) (rowOf (V c main_v14)) (i 0) (i 1) (i 2)

theorem out_apply (c : Dev nD) (t : Fin cfg1.N) (h7 : t.val / 8 % 8 = 7) (q : Fin 2048) (j : Fin 256)
    (i : S4x2048x2048.Idx) (h0 : (i 0).val = t.val / 64) (h1 : (i 1).val = q.val)
    (h2 : (i 2).val = 256 * (t.val % 8) + j.val) :
    Reg1.outAt V c t (ix3 0 q j) = G V c i := by
  have hq : i 1 = q := Fin.ext h1
  have hmt : ((grid1.coords t) 2).val = t.val % 8 := Reg1.hmt t
  obtain ⟨-, -, ⟨a0, a1, a2⟩, ⟨b0, b1, b2⟩, -⟩ := idx_facts t
  unfold Reg1.outAt
  refine (Pay1.weights_apply _ _ _ _ _ _ q j).trans ?_
  show Cert.Spec.softmaxQ _ q = Cert.Spec.softmaxQ _ (i 1)
  rw [hq]
  refine congrArg (fun L => Cert.Spec.softmaxQ L q) (funext fun q' => ?_)
  have eacc : View.ld (Reg1.accAt V c t.val t.isLt) (Reg1.slab (grid1.coords t)) (ix2 q' j)
      = Cert.Spec.xyRaw (V c main_arg0) (V c main_arg1) (i 0) q' (i 2) := by
    show Reg1.accBefore V c (t.val + 1) t.isLt ((Reg1.slab (grid1.coords t)).emb (ix2 q' j)) = _
    rw [slab_emb (grid1.coords t) q' j (ix2 q' (i 2)) rfl (by rw [hmt]; exact h2),
      acc_inv V c (t.val + 1) t.isLt t.val (Nat.lt_succ_self _) (by omega) q' j (ix2 q' (i 2)) rfl h2, h7, ← h0, ← h2]
    exact partXY_full _ _ (i 0) q' (i 2)
  have exx : Reg1.xxblk V c t (ix3 0 0 q') = _ := row_read (V c main_v0_1) (win1_2.index t) q' _ rfl rfl rfl (i 0) q' (by omega) a1 (by omega)
  have exs : Reg1.xsblk V c t (ix3 0 0 q') = _ := row_read (V c main_v0_0) (win1_2.index t) q' _ rfl rfl rfl (i 0) q' (by omega) a1 (by omega)
  have emu : Reg1.mublk V c t (ix3 0 0 j) = _ := row_read (V c main_v2) (win1_4.index t) j _ rfl rfl rfl (i 0) (i 2) (by omega) b1 (by omega)
  have es : Reg1.sblk V c t (ix3 0 0 j) = _ := row_read (V c main_v12) (win1_4.index t) j _ rfl rfl rfl (i 0) (i 2) (by omega) b1 (by omega)
  have eyy : Reg1.yyblk V c t (ix3 0 0 j) = _ := row_read (V c main_v14) (win1_4.index t) j _ rfl rfl rfl (i 0) (i 2) (by omega) b1 (by omega)
  rw [eacc, exx, exs, emu, es, eyy]
  rfl

theorem flushed_eq (c : Dev nD) (t : Fin cfg1.N) (hf : (cfg1.win 7).flush t = true) :
    (Reg1.dat V c).flushed 7 t = ((cfg1.win 7).blk t).view.read (Elt Ideal) (G V c) := by
  have h7 : t.val / 8 % 8 = 7 := (flush_iff t).mp hf
  obtain ⟨-, -, -, -, e0, e1, e2⟩ := idx_facts t
  have e2' := e2 h7
  show (cfg1.win 7).cut (grid1.coords t) ((Reg1.dat V c).after 7 t) = _
  rw [Reg1.after_out]
  refine funext fun (y : S1x2048x256.Idx) => ?_
  rw [View.read_apply]
  obtain ⟨q, j, rfl⟩ : ∃ (q : Fin 2048) (j : Fin 256), y = ix3 0 q j :=
    ⟨y 1, y 2, (eq_ix3 y).trans (congrArg (fun z : Fin 1 => ix3 z (y 1) (y 2)) (Fin.fin_one_eq_zero (y 0)))⟩
  refine out_apply V c t h7 q j _ ?_ ?_ ?_
  · show win1_7.index t 0 * 1 + 1 * 0 = _; omega
  · show win1_7.index t 1 * 2048 + 1 * q.val = _; omega
  · show win1_7.index t 2 * 256 + 1 * j.val = _; omega

theorem weights (c : Dev nD) (b : Fin 4) (q m : Fin 2048) :
    (Reg1.dat V c).arrAt 7 cfg1.N (ix3 b q m)
      = Cert.Spec.kP (V c main_arg0) (V c main_arg1) (rowOf (V c main_v0_1)) (rowOf (V c main_v0_0)) (rowOf (V c main_v2)) (rowOf (V c main_v12)) (rowOf (V c main_v14)) b q m := by
  have hN : cfg1.N = 256 := by decide
  have := b.isLt
  have := m.isLt
  obtain ⟨t, ht⟩ : ∃ t : Fin cfg1.N, t.val = 64 * b.val + 56 + m.val / 256 := ⟨⟨_, by rw [hN]; omega⟩, rfl⟩
  have h7 : t.val / 8 % 8 = 7 := by omega
  obtain ⟨-, -, -, -, e0, e1, e2⟩ := idx_facts t
  have e2' := e2 h7
  refine (Reg1.dat V c).arrAt_apply_of_mem 7 (G V c) (flushed_eq V c) cfg1.N t _ t.isLt ((flush_iff t).mpr h7)
    (Finset.mem_map.mpr ⟨ix3 0 q ⟨m.val % 256, Nat.mod_lt _ (by decide)⟩, Finset.mem_univ _, funext fun a => Fin.ext ?_⟩)
  match a with
  | ⟨0, _⟩ => show win1_7.index t 0 * 1 + 1 * 0 = b.val; omega
  | ⟨1, _⟩ => show win1_7.index t 1 * 2048 + 1 * q.val = q.val; omega
  | ⟨2, _⟩ => show win1_7.index t 2 * 256 + 1 * (m.val % 256) = m.val; omega

end Cert.KernelIdeal.Val1

end
-- ==== Proof.KI.Val2.lean ====
import proofs.«401599_j70669391889130_3_alg».proof.Proof.KI.Reg2
import proofs.«401599_j70669391889130_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val2

open Cert.KernelIdeal Cert.KernelIdeal.Gen
open Idealize.ShloMosaic Idealize.ShloMosaic.TcCoe Idealize.ShloMosaic.ValueIdx
open Idealize.SL Idealize.SL.Sem
open Cert.Spec (rowOf)

variable (V : (c : Dev nD) → (b : Ref sig .tc) → Buf (Elt Ideal) ((c : Thread nD τ).loc b))

open scoped BigOperators

-- The block product into the zero accumulator, at row r and column q, is the sum over the 2048 inner positions.
theorem mm_apply (A : FVec Ideal S512x2048 .bf16) (B : FVec Ideal S2048x512 .bf16) (r q : Fin 512) :
    FloatOps.matmul dot_S512x2048_S2048x512_S512x512_1_0_0_1_n_n none A B (constant (F := Ideal) S512x512 .f32 0x00000000#32) (ix2 r q)
      = ∑ k : Fin 2048, A (ix2 r k) * B (ix2 k q) := by
  rw [Ideal.matmul_constant_zero_apply, ← Equiv.sum_comp (contrEquiv1 _ 2048 rfl rfl).symm]
  refine Finset.sum_congr rfl fun k _ => ?_
  have e := contrEquiv1_symm_val dot_S512x2048_S2048x512_S512x512_1_0_0_1_n_n 2048 rfl rfl k
  congr 2 <;> funext a <;> apply Fin.ext
  · match a with
    | ⟨0, _⟩ => rfl
    | ⟨1, _⟩ => exact e
  · match a with
    | ⟨0, _⟩ => exact e
    | ⟨1, _⟩ => rfl

-- A row block copied into every row reads, at column q, the row's entry q.
theorem row (x : Vec Ideal S1x1x512 .f32) (r q : Fin 512) :
    broadcastTo S512x512 (k2_pay4 x) broadcasts_S1x512_S512x512 (ix2 r q) = x (ix3 (0 : Fin 1) (0 : Fin 1) q) :=
  (broadcastTo_1b_ab_apply _ _ r q).trans (shapeCast_1ab_ab_apply x _ 0 q)

-- The vector f has coordinates a, b, c.
abbrev Is3 (f : Fin 3 → Nat) (a b c : Nat) : Prop := f 0 = a ∧ f 1 = b ∧ f 2 = c

-- With b = t / 32, nt = t / 4 % 8, mt = t % 4: the block index of each window at point t, and the slab's offset.
theorem idx_facts : ∀ t : Fin cfg2.N,
    Is3 (win2_0.index t) (t.val / 32) (t.val / 4 % 8) 0 ∧ Is3 (win2_1.index t) (t.val / 32) 0 0 ∧ Is3 (win2_2.index t) (t.val / 32) 0 (t.val % 4)
    ∧ Is3 (win2_4.index t) (t.val / 32) (t.val / 4 % 8) (t.val % 4) ∧ Is3 (k2_off1 (grid2.coords t)) 0 0 (512 * (t.val % 4)) :=
  (by decide +kernel : ∀ t : Fin grid2.N, _)

-- Rank-3 indices with equal coordinates are equal.
theorem ix3_ext {n0 n1 n2 : Nat} {i j : (⟨3, ![n0, n1, n2]⟩ : Shape).Idx} (h0 : (i 0).val = (j 0).val) (h1 : (i 1).val = (j 1).val)
    (h2 : (i 2).val = (j 2).val) : i = j :=
  funext fun a => Fin.ext (match a with | ⟨0, _⟩ => h0 | ⟨1, _⟩ => h1 | ⟨2, _⟩ => h2)

theorem hz3 : (![0, 0, 0] : Fin 3 → Nat) = fun _ => 0 := by decide

-- Entry (u, r, q) of the output block at point t sits in the array at batch b, row 512 nt + r, column 512 mt + q.
theorem emb4 (t : Fin cfg2.N) (u : Fin 1) (r q : Fin 512) (i : S4x4096x2048.Idx) (h : ((cfg2.win 4).blk t).view.emb (ix3 u r q) = i) :
    (i 0).val = t.val / 32 ∧ (i 1).val = 512 * (t.val / 4 % 8) + r.val ∧ (i 2).val = 512 * (t.val % 4) + q.val := by
  obtain ⟨-, -, -, ⟨d0, d1, d2⟩, -⟩ := idx_facts t
  subst h
  exact ⟨(by omega : win2_4.index t (0 : Fin 3) * 1 + 1 * u.val = t.val / 32), (by omega : win2_4.index t (1 : Fin 3) * 512 + 1 * r.val = _),
    (by omega : win2_4.index t (2 : Fin 3) * 512 + 1 * q.val = _)⟩

-- Every entry of the array is in the output block of the point its batch, row tile and column tile name.
theorem cover (i : S4x4096x2048.Idx) : ∃ t : Fin cfg2.N, i ∈ ((cfg2.win 4).blk t).view.set := by
  have h0 : (i 0).val < 4 := (i 0).isLt
  have h1 : (i 1).val < 4096 := (i 1).isLt
  have h2 : (i 2).val < 2048 := (i 2).isLt
  obtain ⟨t, ht⟩ : ∃ t : Fin cfg2.N, t.val = (i 0).val * 32 + (i 1).val / 512 * 4 + (i 2).val / 512 := ⟨⟨_, lt_of_lt_of_eq (by omega) N_2.symm⟩, rfl⟩
  obtain ⟨r, hr⟩ : ∃ r : Fin 512, r.val = (i 1).val % 512 := ⟨⟨_, Nat.mod_lt _ (by decide)⟩, rfl⟩
  obtain ⟨q, hq⟩ : ∃ q : Fin 512, q.val = (i 2).val % 512 := ⟨⟨_, Nat.mod_lt _ (by decide)⟩, rfl⟩
  obtain ⟨e0, e1, e2⟩ := emb4 t 0 r q _ rfl
  have h : ((cfg2.win 4).blk t).view.emb (ix3 0 r q) = i := ix3_ext (by omega) (by omega) (by omega)
  exact ⟨t, h ▸ View.emb_mem_set _ _⟩

theorem pay1 (x : Vec Ideal S1x512x2048 .f32) (r : Fin 512) (k : Fin 2048) : k2_pay1 x (ix2 r k) = x (ix3 (0 : Fin 1) r k) :=
  shapeCast_1ab_ab_apply x _ r k

theorem pay2 (w : Vec Ideal S1x2048x512 .bf16) (k : Fin 2048) (q : Fin 512) : k2_pay2 w (ix2 k q) = w (ix3 (0 : Fin 1) k q) :=
  shapeCast_1ab_ab_apply w _ k q
section Point

variable (c : Dev nD) (t : Fin cfg2.N) (r q : Fin 512) (b : Fin 4) (n : Fin 4096) (m : Fin 2048)
  (hb : b.val = t.val / 32) (hn : n.val = 512 * (t.val / 4 % 8) + r.val) (hm : m.val = 512 * (t.val % 4) + q.val)
include hb hn hm

-- The data block, the weight slab and the two row blocks at point t, read at the array's entries.
theorem reads (k : Fin 2048) :
    (Reg2.iblk V c 0 t : Vec Ideal S1x512x2048 .f32) (ix3 (0 : Fin 1) r k) = V c main_arg0 (ix3 b n k)
    ∧ (View.ld (Reg2.iblk V c 1 t : Vec Ideal S1x2048x2048 .bf16) (Reg2.rP (cfg2.grid.coords t)) : Vec Ideal S1x2048x512 .bf16) (ix3 (0 : Fin 1) k q)
      = V c main_v15 (ix3 b k m)
    ∧ (Reg2.iblk V c 2 t : Vec Ideal S1x1x512 .f32) (ix3 (0 : Fin 1) (0 : Fin 1) q) = V c main_v2 (ix3 b 0 m)
    ∧ (Reg2.iblk V c 3 t : Vec Ideal S1x1x512 .f32) (ix3 (0 : Fin 1) (0 : Fin 1) q) = V c main_v12 (ix3 b 0 m) := by
  obtain ⟨⟨a0, a1, a2⟩, ⟨b0, b1, b2⟩, ⟨c0, c1, c2⟩, -, o0, o1, o2⟩ := idx_facts t
  have e : ((cfg2.win 2).blk t).view.emb (ix3 0 0 q) = ix3 b 0 m := ix3_ext (by omega : win2_2.index t (0 : Fin 3) * 1 + 1 * 0 = b.val)
    (by omega : win2_2.index t (1 : Fin 3) * 1 + 1 * 0 = 0) (by omega : win2_2.index t (2 : Fin 3) * 512 + 1 * q.val = m.val)
  exact ⟨congrArg (V c main_arg0) (ix3_ext (by omega : win2_0.index t (0 : Fin 3) * 1 + 1 * 0 = b.val)
      (by omega : win2_0.index t (1 : Fin 3) * 512 + 1 * r.val = n.val) (by omega : win2_0.index t (2 : Fin 3) * 2048 + 1 * k.val = k.val)),
    congrArg (V c main_v15) (ix3_ext (by omega : win2_1.index t (0 : Fin 3) * 1 + 1 * (k2_off1 (grid2.coords t) (0 : Fin 3) + 1 * 0) = b.val)
      (by omega : win2_1.index t (1 : Fin 3) * 2048 + 1 * (k2_off1 (grid2.coords t) (1 : Fin 3) + 1 * k.val) = k.val)
      (by omega : win2_1.index t (2 : Fin 3) * 2048 + 1 * (k2_off1 (grid2.coords t) (2 : Fin 3) + 1 * q.val) = m.val)),
    congrArg (V c main_v2) e, congrArg (V c main_v12) e⟩

-- The block product at (r, q) is the specification's product at (b, n, m).
theorem prod : k2_pay3 (Reg2.iblk V c 0 t) (View.ld (Reg2.iblk V c 1 t : Vec Ideal S1x2048x2048 .bf16) (Reg2.rP (cfg2.grid.coords t))) (ix2 r q)
    = Cert.Spec.mulP (V c main_arg0) (V c main_v15) b n m :=
  (mm_apply _ _ r q).trans (Finset.sum_congr rfl fun k _ => congrArg₂ (· * ·) ((pay1 _ r k).trans (reads V c t r q b n m hb hn hm k).1)
    ((pay2 _ k q).trans (reads V c t r q b n m hb hn hm k).2.1))

-- The first output block: the product times the deviation row plus the mean row.
theorem out4 (u : Fin 1) : Reg2.out_4 (cfg2.grid.coords t) (Reg2.iblk V c 0 t) (Reg2.iblk V c 1 t) (Reg2.iblk V c 2 t) (Reg2.iblk V c 3 t) (ix3 u r q)
    = Cert.Spec.outY (V c main_arg0) (V c main_v15) (rowOf (V c main_v2)) (rowOf (V c main_v12)) b n m := by
  have R := reads V c t r q b n m hb hn hm 0
  unfold Reg2.out_4 k2_pay5
  rw [View.canon_unit_zero (S := S1x512x512) hz3, View.ld_unit_zero (S := S1x512x2048) hz3, View.ld_unit_zero (S := S1x1x512) hz3,
    View.ld_unit_zero (S := S1x1x512) hz3]
  refine (shapeCast_ab_1ab_apply _ _ u r q).trans (congrArg₂ (· + ·) (congrArg₂ (· * ·) (prod V c t r q b n m hb hn hm) ?_) ?_)
  · exact (row _ r q).trans R.2.2.2
  · exact (row _ r q).trans R.2.2.1

-- The second output block: the root of the clipped difference of the squares' product and the product's square, times the deviation row.
theorem out5 (u : Fin 1) : Reg2.out_5 (cfg2.grid.coords t) (Reg2.iblk V c 0 t) (Reg2.iblk V c 1 t) (Reg2.iblk V c 3 t) (ix3 u r q)
    = Cert.Spec.outYstd (V c main_arg0) (V c main_v15) (rowOf (V c main_v12)) b n m := by
  have R := reads V c t r q b n m hb hn hm
  have hP := prod V c t r q b n m hb hn hm
  unfold Reg2.out_5 k2_pay6
  rw [View.canon_unit_zero (S := S1x512x512) hz3, View.ld_unit_zero (S := S1x512x2048) hz3, View.ld_unit_zero (S := S1x1x512) hz3]
  refine (shapeCast_ab_1ab_apply _ _ u r q).trans (congrArg₂ (· * ·) (congrArg Ideal.sqrt (congrArg (max (Ideal.ofBits .f32 0x00000000#32))
    (congrArg₂ (· - ·) ?_ (congrArg₂ (· * ·) hP hP)))) ?_)
  · exact (mm_apply _ _ r q).trans (Finset.sum_congr rfl fun k _ => congrArg₂ (· * ·)
      (congrArg₂ (· * ·) ((pay1 _ r k).trans (R k).1) ((pay1 _ r k).trans (R k).1)) ((pay2 _ k q).trans (R k).2.1))
  · exact (row _ r q).trans (R 0).2.2.2

end Point

-- What the two outputs end holding, as arrays.
abbrev G4 (c : Dev nD) : Cert.Spec.Arr3 4 4096 2048 := fun i =>
  Cert.Spec.outY (V c main_arg0) (V c main_v15) (rowOf (V c main_v2)) (rowOf (V c main_v12)) (i 0) (i 1) (i 2)
abbrev G5 (c : Dev nD) : Cert.Spec.Arr3 4 4096 2048 := fun i =>
  Cert.Spec.outYstd (V c main_arg0) (V c main_v15) (rowOf (V c main_v12)) (i 0) (i 1) (i 2)

-- The output block at point t is block t of the specification's array.
theorem flushed4 (c : Dev nD) (t : Fin cfg2.N) : (Reg2.dat V c).flushed 4 t = ((cfg2.win 4).blk t).view.read (Elt Ideal) (G4 V c) := by
  show (cfg2.win 4).cut (grid2.coords t) ((Reg2.dat V c).after 4 t) = _
  rw [Reg2.after_4]
  funext j
  obtain ⟨u, r, q, rfl⟩ : ∃ (u : Fin 1) (r q : Fin 512), j = ix3 u r q := ⟨j 0, j 1, j 2, eq_ix3 j⟩
  obtain ⟨hb, hn, hm⟩ := emb4 t u r q _ rfl
  exact out4 V c t r q _ _ _ hb hn hm u

theorem flushed5 (c : Dev nD) (t : Fin cfg2.N) : (Reg2.dat V c).flushed 5 t = ((cfg2.win 5).blk t).view.read (Elt Ideal) (G5 V c) := by
  show (cfg2.win 5).cut (grid2.coords t) ((Reg2.dat V c).after 5 t) = _
  rw [Reg2.after_5]
  funext j
  obtain ⟨u, r, q, rfl⟩ : ∃ (u : Fin 1) (r q : Fin 512), j = ix3 u r q := ⟨j 0, j 1, j 2, eq_ix3 j⟩
  obtain ⟨hb, hn, hm⟩ := emb4 t u r q _ rfl
  exact out5 V c t r q _ _ _ hb hn hm u

theorem outY (c : Dev nD) (b : Fin 4) (n : Fin 4096) (m : Fin 2048) :
    (Reg2.dat V c).arrAt 4 cfg2.N (ix3 b n m)
      = Cert.Spec.outY (V c main_arg0) (V c main_v15) (rowOf (V c main_v2)) (rowOf (V c main_v12)) b n m :=
  congrFun ((Reg2.dat V c).arrAt_eq_of_cover 4 (G4 V c) (fun t _ => flushed4 V c t) fun i => (cover i).imp fun t h => ⟨flush2_4 t, h⟩) (ix3 b n m)

theorem outYstd (c : Dev nD) (b : Fin 4) (n : Fin 4096) (m : Fin 2048) :
    (Reg2.dat V c).arrAt 5 cfg2.N (ix3 b n m)
      = Cert.Spec.outYstd (V c main_arg0) (V c main_v15) (rowOf (V c main_v12)) b n m :=
  congrFun ((Reg2.dat V c).arrAt_eq_of_cover 5 (G5 V c) (fun t _ => flushed5 V c t) fun i => (cover i).imp fun t h => ⟨flush2_5 t, h⟩) (ix3 b n m)

end Cert.KernelIdeal.Val2

end
-- ==== Proof.KI.Trace.lean ====
import proofs.«401599_j70669391889130_3_alg».proof.Proof.KI.Run
import proofs.«401599_j70669391889130_3_alg».proof.Proof.KI.Val0
import proofs.«401599_j70669391889130_3_alg».proof.Proof.KI.Val1
import proofs.«401599_j70669391889130_3_alg».proof.Proof.KI.Val2
import proofs.«401599_j70669391889130_3_alg».proof.Proof.Spec
import Idealize.ShloMosaic.Lib.StableHlo.Run
import Idealize.ShloMosaic.Lib.ValueIdx
import Idealize.ShloMosaic.Lib.ValueLayout
import Idealize.ShloMosaic.Lib.IdealHost
import Idealize.ShloMosaic.PureOps.Ideal.Laws

noncomputable section

namespace Cert.KernelIdeal.Trace

open Cert.KernelIdeal Cert.KernelIdeal.Gen
open Idealize.ShloMosaic Idealize.ShloMosaic.TcCoe Idealize.ShloMosaic.ValueIdx
open Idealize.SL Idealize.SL.Sem
open Cert.Spec (rowOf)

abbrev at3 (A : Cert.Spec.Arr3 4 1 2048) (j : S4x1x2048.Idx) : EReal := A j

-- The first two host stretches at an entry: the mean, and the centred sum of squares clipped at zero.
theorem host12 (W : Valuation τ sig (Elt Ideal)) (j : S4x1x2048.Idx) :
    at3 (StableHlo.after hostOps1 W (Proc.devRef .tc main_v2)) j = Ideal.div (at3 (W (Proc.devRef .tc main_v0_2)) j) Cert.Spec.cN
    ∧ at3 (StableHlo.after hostOps1_1 (StableHlo.after hostOps1 W) (Proc.devRef .tc main_v7)) j
      = max Cert.Spec.c0 (at3 (W (Proc.devRef .tc main_v0_3)) j - Cert.Spec.cN * Ideal.div (at3 (W (Proc.devRef .tc main_v0_2)) j) Cert.Spec.cN
          * Ideal.div (at3 (W (Proc.devRef .tc main_v0_2)) j) Cert.Spec.cN) := by
  refine ⟨?_, ?_⟩ <;> (dsimp only [at3]; after_results <;> rfl)

-- The third host stretch at an entry: the deviation plus the constant, and the standardised norm.
theorem host3 (W : Valuation τ sig (Elt Ideal)) (j : S4x1x2048.Idx) :
    at3 (StableHlo.after hostOps1_2 W (Proc.devRef .tc main_v12)) j
      = Ideal.sqrt (Ideal.div (at3 (W (Proc.devRef .tc main_v7)) j) Cert.Spec.cN1) + Cert.Spec.cEps
    ∧ at3 (StableHlo.after hostOps1_2 W (Proc.devRef .tc main_v14)) j
      = Ideal.div (at3 (W (Proc.devRef .tc main_v7)) j)
          ((Ideal.sqrt (Ideal.div (at3 (W (Proc.devRef .tc main_v7)) j) Cert.Spec.cN1) + Cert.Spec.cEps)
            * (Ideal.sqrt (Ideal.div (at3 (W (Proc.devRef .tc main_v7)) j) Cert.Spec.cN1) + Cert.Spec.cEps)) := by
  refine ⟨?_, ?_⟩ <;> (dsimp only [at3]; after_results; rfl)

variable (m : (ℓ : Loc nD τ sig) → Buf (Elt Ideal) ℓ) (ρ : Dev nD → PrngReg)

-- The two data arrays as launched.
abbrev X (c : Dev nD) : Cert.Spec.Arr3 4 4096 2048 := m ((c.tc : Thread nD τ).loc main_arg0)
abbrev Y (c : Dev nD) : Cert.Spec.Arr3 4 4096 2048 := m ((c.tc : Thread nD τ).loc main_arg1)

-- After the host stretches the clipped centred sum of squares and the mean are the specification's, from the column sums region 0 leaves.
theorem num (c : Dev nD) (b : Fin 4) (q : Fin 2048) :
    at3 (Run.W3 m ρ c (Proc.devRef .tc main_v7)) (ix3 b 0 q)
      = Cert.Spec.kNum (Cert.Spec.colSum (Y m c)) (Cert.Spec.colSumSq (Y m c)) b q ∧
    at3 (Run.W4 m ρ c (Proc.devRef .tc main_v2)) (ix3 b 0 q) = Cert.Spec.kMuOf (Y m c) b q := by
  obtain ⟨h2, h7⟩ := host12 (Run.W1 m ρ c) (ix3 b 0 q)
  have hy : at3 (Run.W1 m ρ c (Proc.devRef .tc main_v0_2)) (ix3 b 0 q) = Cert.Spec.colSum (Y m c) b q :=
    (congrFun (Run.nxt_arr _ _ c launch0 4) _).trans (Val0.sumY (Run.V0 m ρ) c b q)
  have hyy : at3 (Run.W1 m ρ c (Proc.devRef .tc main_v0_3)) (ix3 b 0 q) = Cert.Spec.colSumSq (Y m c) b q :=
    (congrFun (Run.nxt_arr _ _ c launch0 5) _).trans (Val0.sumYY (Run.V0 m ρ) c b q)
  rw [hy] at h2
  rw [hy, hyy] at h7
  exact ⟨h7, (congrFun ((StableHlo.after_of_writes_sub hostOps1_2 _ hostOps1_2_writes (by decide)).trans
    (StableHlo.after_of_writes_sub hostOps1_1 _ hostOps1_1_writes (by decide))) _).trans h2⟩

-- The five rows region 1 reads are the specification's.
theorem rows (c : Dev nD) :
    rowOf (Run.V4 m ρ c main_v0_1) = Cert.Spec.colSumSq (X m c) ∧ rowOf (Run.V4 m ρ c main_v0_0) = Cert.Spec.colSum (X m c)
    ∧ rowOf (Run.V4 m ρ c main_v2) = Cert.Spec.kMuOf (Y m c) ∧ rowOf (Run.V4 m ρ c main_v12) = Cert.Spec.kSOf (Y m c)
    ∧ rowOf (Run.V4 m ρ c main_v14) = Cert.Spec.kYYOf (Y m c) := by
  refine ⟨?_, ?_, ?_, ?_, ?_⟩ <;> funext b q
  · exact (congrFun ((Run.W4_W1 m ρ c main_v0_1 (by decide) (by decide) (by decide)).trans (Run.nxt_arr _ _ c launch0 3)) _).trans
      (Val0.sumXX (Run.V0 m ρ) c b q)
  · exact (congrFun ((Run.W4_W1 m ρ c main_v0_0 (by decide) (by decide) (by decide)).trans (Run.nxt_arr _ _ c launch0 2)) _).trans
      (Val0.sumX (Run.V0 m ρ) c b q)
  · exact (num m ρ c b q).2
  · exact (host3 (Run.W3 m ρ c) (ix3 b 0 q)).1.trans (by rw [(num m ρ c b q).1]; rfl)
  · exact (host3 (Run.W3 m ρ c) (ix3 b 0 q)).2.trans (by rw [(num m ρ c b q).1]; rfl)

-- So region 1 leaves the specification's softmax weights.
theorem V5_P (c : Dev nD) : Run.V5 m ρ c main_v15 = Cert.Spec.kPOf (X m c) (Y m c) := by
  obtain ⟨h1, h2, h3, h4, h5⟩ := rows m ρ c
  funext (j : S4x2048x2048.Idx)
  have h := Val1.weights (Run.V4 m ρ) c (j 0) (j 1) (j 2)
  rw [Run.V4_main_arg0, Run.V4_main_arg1, h1, h2, h3, h4, h5] at h
  rw [eq_ix3 j]
  exact (congrFun (Run.nxt_arr _ _ c launch1 7) _).trans h

theorem out0_apply (c : Dev nD) (b : Fin 4) (n : Fin 4096) (mm : Fin 2048) :
    Run.W6 m ρ c (Proc.devRef .tc main_v16_0) (ix3 b n mm)
      = Cert.Spec.kY (m ((c.tc : Thread nD τ).loc main_arg0)) (m ((c.tc : Thread nD τ).loc main_arg1)) b n mm := by
  have h := Val2.outY (Run.V5 m ρ) c b n mm
  rw [Run.V5_main_arg0, V5_P, show Run.V5 m ρ c main_v2 = Run.V4 m ρ c main_v2 from Run.nxt_in _ _ c launch1 4 rfl,
    show Run.V5 m ρ c main_v12 = Run.V4 m ρ c main_v12 from Run.nxt_in _ _ c launch1 5 rfl, (rows m ρ c).2.2.1, (rows m ρ c).2.2.2.1] at h
  exact (congrFun (Run.nxt_arr _ _ c launch2 4) _).trans h

theorem out1_apply (c : Dev nD) (b : Fin 4) (n : Fin 4096) (mm : Fin 2048) :
    Run.W6 m ρ c (Proc.devRef .tc main_v16_1) (ix3 b n mm)
      = Cert.Spec.kYstd (m ((c.tc : Thread nD τ).loc main_arg0)) (m ((c.tc : Thread nD τ).loc main_arg1)) b n mm := by
  have h := Val2.outYstd (Run.V5 m ρ) c b n mm
  rw [Run.V5_main_arg0, V5_P, show Run.V5 m ρ c main_v12 = Run.V4 m ρ c main_v12 from Run.nxt_in _ _ c launch1 5 rfl, (rows m ρ c).2.2.2.1] at h
  exact (congrFun (Run.nxt_arr _ _ c launch2 5) _).trans h

end Cert.KernelIdeal.Trace

end
-- ==== Proof.Ref.Stages.lean ====
import proofs.«401599_j70669391889130_3_alg».proof.Proof.Gen.ReferenceIdeal
import Idealize.ShloMosaic.PureOps.Ideal

noncomputable section

namespace Cert.ReferenceIdeal.RefRun

open Cert.ReferenceIdeal Cert.ReferenceIdeal.Gen Idealize.ShloMosaic

variable (X Y : FVec Ideal S4x4096x2048 .f32) {α : Type} {F : FTy → Type} [FloatOps F]

abbrev k0 : FVec F S_ .f32 := constant S_ .f32 0x00000000#32
abbrev kN : FVec F S_ .f32 := constant S_ .f32 0x45800000#32
abbrev kNegInf : FVec F S_ .f32 := constant S_ .f32 0xFF800000#32

-- The broadcasts used more than once: a scalar and a [4, 2048] array to [4, 1, 2048]; a [4, 1, 2048] array along a middle axis of extent 4096 or 2048.
abbrev ofScalar : (S_.Idx → α) → S4x1x2048.Idx → α := broadcastInDim S4x1x2048 ![] bcast_S_S4x1x2048
abbrev ofRow : (S4x2048.Idx → α) → S4x1x2048.Idx → α := broadcastInDim S4x1x2048 ![0, 2] bcast_S4x2048_S4x1x2048_0_2
abbrev overN : (S4x1x2048.Idx → α) → S4x4096x2048.Idx → α := broadcastInDim S4x4096x2048 ![0, 1, 2] bcast_S4x1x2048_S4x4096x2048_0_1_2
abbrev overQ : (S4x1x2048.Idx → α) → S4x2048x2048.Idx → α := broadcastInDim S4x2048x2048 ![0, 1, 2] bcast_S4x1x2048_S4x2048x2048_0_1_2

def st_v4 := Host.divf (ofRow (Host.reduceAdd Y k0 reducesTo_S4x4096x2048_S4x2048_d1 h_S_)) (ofScalar kN)

def st_c5 := subf Y (overN (st_v4 Y))

def st_n1 : FVec Ideal S_ .f32 := subf kN (sitofp .f32 (constantI S_ 32 1#32))

def st_var :=
  select (ofScalar (cmpf .ogt st_n1 k0))
    (Host.divf (ofRow (Host.reduceAdd (mulf (st_c5 Y) (st_c5 Y)) k0 reducesTo_S4x4096x2048_S4x2048_d1 h_S_)) (ofScalar st_n1))
    (ofScalar (constant S_ .f32 0x7FC00000#32))

def st_v7 := addf (Host.sqrt (st_var Y)) (ofScalar (constant S_ .f32 0x3A83126F#32))

def st_v11 := Host.divf (subf Y (overN (st_v4 Y))) (overN (st_v7 Y))

def st_v13 := Host.reduceAdd (mulf X X) k0 reducesTo_S4x4096x2048_S4x2048_d1 h_S_

def st_v15 := Host.reduceAdd (mulf (st_v11 Y) (st_v11 Y)) k0 reducesTo_S4x4096x2048_S4x2048_d1 h_S_

def st_v16 := Host.dotGeneral dot_S4x4096x2048_S4x4096x2048_S4x2048x2048_1_1_2_2_0_0 none X (st_v11 Y)

def st_v24 :=
  subf
    (addf
      (broadcastInDim S4x2048x2048 ![0, 1, 2] bcast_S4x2048x1_S4x2048x2048_0_1_2
        (broadcastInDim S4x2048x1 ![0, 1] bcast_S4x2048_S4x2048x1_0_1 (st_v13 X)))
      (overQ (ofRow (st_v15 Y))))
    (mulf (broadcastInDim S4x2048x2048 ![] bcast_S_S4x2048x2048 (constant S_ .f32 0x40000000#32)) (st_v16 X Y))

def st_v27 := Host.negf (Host.sqrt (maximumf (broadcastInDim S4x2048x2048 ![] bcast_S_S4x2048x2048 k0) (st_v24 X Y)))

def st_v30 :=
  maximumf (broadcastInDim S4x2048 ![] bcast_S_S4x2048 kNegInf)
    (Host.reduce FloatOps.maximumf (st_v27 X Y) kNegInf reducesTo_S4x2048x2048_S4x2048_d1 h_S_)

def st_v34 := Host.exp (subf (st_v27 X Y) (overQ (ofRow (st_v30 X Y))))

def st_v38 :=
  Host.divf (st_v34 X Y) (overQ (ofRow (Host.reduceAdd (st_v34 X Y) k0 reducesTo_S4x2048x2048_S4x2048_d1 h_S_)))

def st_v39 := Host.dotGeneral dot_S4x4096x2048_S4x2048x2048_S4x4096x2048_2_1_1_2_0_0 none X (st_v38 X Y)

def res_v43 (X Y : FVec Ideal S4x4096x2048 .f32) (reg : FVec Ideal S1 .f32) : FVec Ideal S4x4096x2048 .f32 :=
  addf (mulf (st_v39 X Y) (overN (st_v7 Y))) (overN (st_v4 Y))

def st_v47 :=
  subf (Host.dotGeneral dot_S4x4096x2048_S4x2048x2048_S4x4096x2048_2_1_1_2_0_0 none (mulf X X) (st_v38 X Y))
    (mulf (st_v39 X Y) (st_v39 X Y))

def res_v51 (X Y : FVec Ideal S4x4096x2048 .f32) (reg : FVec Ideal S1 .f32) : FVec Ideal S4x4096x2048 .f32 :=
  mulf (Host.sqrt (maximumf (broadcastInDim S4x4096x2048 ![] bcast_S_S4x4096x2048 k0) (st_v47 X Y))) (overN (st_v7 Y))

end Cert.ReferenceIdeal.RefRun

end
-- ==== Proof.Ref.Run.lean ====
import proofs.«401599_j70669391889130_3_alg».proof.Proof.Ref.Stages
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

section Generic

variable {F : FTy → Type} [FloatOps F]

abbrev ops : List (HloOp τ sig (Elt F)) :=
  [ unary main_arg2 main_v0 Host.exp,
    nullary main_cst k0,
    binary main_arg1 main_cst main_v1 (Host.reduceAdd · · reducesTo_S4x4096x2048_S4x2048_d1 h_S_),
    unary main_v1 main_v2 ofRow,
    nullary main_cst_0 kN,
    unary main_cst_0 main_v3 ofScalar,
    binary main_v2 main_v3 main_v4 Host.divf,
    nullary main_c (constantI S_ 32 1#32),
    TRef.nullary main_call0.call0.cst k0,
    TRef.binary (.of main_arg1) main_call0.call0.cst main_call0.call0.v0 (Host.reduceAdd · · reducesTo_S4x4096x2048_S4x2048_d1 h_S_),
    TRef.unary main_call0.call0.v0 main_call0.call0.v1 ofRow,
    TRef.nullary main_call0.call0.cst_0 kN,
    TRef.unary main_call0.call0.cst_0 main_call0.call0.v2 ofScalar,
    TRef.binary main_call0.call0.v1 main_call0.call0.v2 main_call0.call0.v3 Host.divf,
    TRef.unary main_call0.call0.v3 main_call0.call0.v4 overN,
    TRef.binary (.of main_arg1) main_call0.call0.v4 main_call0.call0.v5 subf,
    TRef.binary main_call0.call0.v5 main_call0.call0.v5 main_call0.call0.v6 mulf,
    TRef.unary (.of main_c) main_call0.call0.v7 (sitofp .f32),
    TRef.nullary main_call0.call0.cst_1 kN,
    TRef.binary main_call0.call0.cst_1 main_call0.call0.v7 main_call0.call0.v8 subf,
    TRef.nullary main_call0.call0.cst_2 k0,
    TRef.binary main_call0.call0.v6 main_call0.call0.cst_2 main_call0.call0.v9 (Host.reduceAdd · · reducesTo_S4x4096x2048_S4x2048_d1 h_S_),
    TRef.unary main_call0.call0.v9 main_call0.call0.v10 ofRow,
    TRef.unary main_call0.call0.v8 main_call0.call0.v11 ofScalar,
    TRef.binary main_call0.call0.v10 main_call0.call0.v11 main_call0.call0.v12 Host.divf,
    TRef.nullary main_call0.call0.cst_3 k0,
    TRef.binary main_call0.call0.v8 main_call0.call0.cst_3 main_call0.call0.v13 (cmpf .ogt),
    TRef.nullary main_call0.call0.cst_4 (constant S_ .f32 0x7FC00000#32),
    TRef.unary main_call0.call0.cst_4 main_call0.call0.call0.v0 id,
    TRef.unary main_call0.call0.call0.v0 main_call0.call0.call0.v1 ofScalar,
    TRef.ternary main_call0.call0.v13 main_call0.call0.v12 main_call0.call0.call0.v1 main_call0.call0.call0.v2 (fun p => select (ofScalar p)),
    TRef.unary main_call0.call0.call0.v2 main_call0.v1 Host.sqrt,
    nullary main_cst_1 (constant S_ .f32 0x3A83126F#32),
    unary main_cst_1 main_v6 ofScalar,
    binary main_v5 main_v6 main_v7 addf,
    unary main_v4 main_v8 overN,
    binary main_arg1 main_v8 main_v9 subf,
    unary main_v7 main_v10 overN,
    binary main_v9 main_v10 main_v11 Host.divf,
    binary main_arg0 main_arg0 main_v12 mulf,
    nullary main_cst_2 k0,
    binary main_v12 main_cst_2 main_v13 (Host.reduceAdd · · reducesTo_S4x4096x2048_S4x2048_d1 h_S_),
    binary main_v11 main_v11 main_v14 mulf,
    nullary main_cst_3 k0,
    binary main_v14 main_cst_3 main_v15 (Host.reduceAdd · · reducesTo_S4x4096x2048_S4x2048_d1 h_S_),
    binary main_arg0 main_v11 main_v16 (Host.dotGeneral dot_S4x4096x2048_S4x4096x2048_S4x2048x2048_1_1_2_2_0_0 none),
    unary main_v13 main_v17 (broadcastInDim S4x2048x1 ![0, 1] bcast_S4x2048_S4x2048x1_0_1),
    unary main_v15 main_v18 ofRow,
    unary main_v17 main_v19 (broadcastInDim S4x2048x2048 ![0, 1, 2] bcast_S4x2048x1_S4x2048x2048_0_1_2),
    unary main_v18 main_v20 overQ,
    binary main_v19 main_v20 main_v21 addf,
    nullary main_cst_4 (constant S_ .f32 0x40000000#32),
    unary main_cst_4 main_v22 (broadcastInDim S4x2048x2048 ![] bcast_S_S4x2048x2048),
    binary main_v22 main_v16 main_v23 mulf,
    binary main_v21 main_v23 main_v24 subf,
    nullary main_cst_5 k0,
    TRef.unary (.of main_cst_5) main_call1.v0 id,
    TRef.unary main_call1.v0 main_call1.v1 (broadcastInDim S4x2048x2048 ![] bcast_S_S4x2048x2048),
    TRef.binary main_call1.v1 (.of main_v24) main_call1.v2 maximumf,
    unary main_v25 main_v26 Host.sqrt,
    unary main_v26 main_v27 Host.negf,
    nullary main_cst_6 kNegInf,
    binary main_v27 main_cst_6 main_v28 (Host.reduce FloatOps.maximumf · · reducesTo_S4x2048x2048_S4x2048_d1 h_S_),
    nullary main_cst_7 kNegInf,
    unary main_cst_7 main_v29 (broadcastInDim S4x2048 ![] bcast_S_S4x2048),
    binary main_v29 main_v28 main_v30 maximumf,
    unary main_v30 main_v31 ofRow,
    unary main_v31 main_v32 overQ,
    binary main_v27 main_v32 main_v33 subf,
    unary main_v33 main_v34 Host.exp,
    nullary main_cst_8 k0,
    binary main_v34 main_cst_8 main_v35 (Host.reduceAdd · · reducesTo_S4x2048x2048_S4x2048_d1 h_S_),
    unary main_v35 main_v36 ofRow,
    unary main_v36 main_v37 overQ,
    binary main_v34 main_v37 main_v38 Host.divf,
    binary main_arg0 main_v38 main_v39 (Host.dotGeneral dot_S4x4096x2048_S4x2048x2048_S4x4096x2048_2_1_1_2_0_0 none),
    unary main_v7 main_v40 overN,
    binary main_v39 main_v40 main_v41 mulf,
    unary main_v4 main_v42 overN,
    binary main_v41 main_v42 main_v43 addf,
    binary main_arg0 main_arg0 main_v44 mulf,
    binary main_v44 main_v38 main_v45 (Host.dotGeneral dot_S4x4096x2048_S4x2048x2048_S4x4096x2048_2_1_1_2_0_0 none),
    binary main_v39 main_v39 main_v46 mulf,
    binary main_v45 main_v46 main_v47 subf,
    nullary main_cst_9 k0,
    TRef.unary (.of main_cst_9) main_call2.v0 id,
    TRef.unary main_call2.v0 main_call2.v1 (broadcastInDim S4x4096x2048 ![] bcast_S_S4x4096x2048),
    TRef.binary main_call2.v1 (.of main_v47) main_call2.v2 maximumf,
    unary main_v48 main_v49 Host.sqrt,
    unary main_v7 main_v50 overN,
    binary main_v49 main_v50 main_v51 mulf ]

set_option maxHeartbeats 4000000 in
theorem main_eq (c : Dev nD) : main (F := F) c = seq ops := rfl

theorem ops_sub : (ops : List (HloOp τ sig (Elt F))).Forall fun op => op.bufs ⊆ tcRefs τ sig := by
  simp only [ops, List.Forall, nullary_bufs_sub, unary_bufs_sub, binary_bufs_sub, ternary_bufs_sub, and_self]

end Generic

set_option maxRecDepth 8192 in
set_option maxHeartbeats 8000000 in
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v43)
          = res_v43 (m ((c.tc : Thread nD τ).loc main_arg0)) (m ((c.tc : Thread nD τ).loc main_arg1)) (m ((c.tc : Thread nD τ).loc main_arg2))
      ∧ r.2.mem ((c.tc : Thread nD τ).loc main_v51)
          = res_v51 (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => by simp only [h c]; refine ⟨?_, ?_, ?_, ?_, ?_⟩ <;> after_results_simp <;> rfl)
    (run_seq (by decide) (by decide) defs main (fun _ => ops) main_eq (fun _ => ops_sub) m ρ)

theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).2.2.1, (h c).2.2.2.1, (h c).2.2.2.2⟩) (run m ρ)

end Cert.ReferenceIdeal.RefRun

end
-- ==== Proof.Ref.Read.lean ====
import proofs.«401599_j70669391889130_3_alg».proof.Proof.Ref.Stages
import proofs.«401599_j70669391889130_3_alg».proof.Proof.Spec
import Idealize.ShloMosaic.Lib.IdealHost

noncomputable section

open scoped BigOperators

namespace Cert.ReferenceIdeal.RefRead

open Cert.ReferenceIdeal Cert.ReferenceIdeal.Gen Cert.ReferenceIdeal.RefRun Cert.Spec Idealize.ShloMosaic Idealize.ShloMosaic.ValueIdx

variable (X Y : FVec Ideal S4x4096x2048 .f32)

-- A sum from zero over the middle axis is the sum over that axis's coordinate.
theorem sum_mid {N : Nat} (x : FVec Ideal ⟨3, ![4, N, 2048]⟩ .f32) (h' : (⟨3, ![4, N, 2048]⟩ : Shape).ReducesTo [1] S4x2048) :
    Host.reduceAdd x k0 h' h_S_ = fun i => ∑ n : Fin N, x (ix3 (i 0) n (i 1)) := by
  funext i
  rw [hostReduceAdd_apply, Ideal.hostReduceAdd_single h' ⟨h'.1, Nat.two_pos, h'.2⟩]
  exact (congrArg (· + _) Ideal.ofBits_zero_f32).trans ((zero_add _).trans (Finset.sum_congr rfl fun n _ => congrArg x (eq_ix3 _)))

-- A contraction over one axis is the sum over its coordinate of the products of the operands' entries.
theorem dot_eq {sl sr so : Shape} (D : DotDims sl sr so) (n : Nat) (hr : D.contr.rank = 1) (hs : D.contr.size ⟨0, by omega⟩ = n)
    (A : FVec Ideal sl .f32) (B : FVec Ideal sr .f32) (L : so.Idx → Fin n → sl.Idx) (R : so.Idx → Fin n → sr.Idx)
    (hL : ∀ j i, D.lhsIdx j ((contrEquiv1 D n hr hs).symm i) = L j i)
    (hR : ∀ j i, D.rhsIdx j ((contrEquiv1 D n hr hs).symm i) = R j i) :
    Host.dotGeneral (F := Ideal) D none A B = fun j => ∑ i, A (L j i) * B (R j i) := by
  funext j
  refine (Ideal.dotGeneral_apply D none .single A B j).trans ?_
  rw [← Equiv.sum_comp (contrEquiv1 D n hr hs).symm]
  simp only [hL, hR]

-- The rows of both operands contracted.
theorem dotA_eq : Host.dotGeneral (F := Ideal) dot_S4x4096x2048_S4x4096x2048_S4x2048x2048_1_1_2_2_0_0 none X Y
    = fun j => ∑ n : Fin 4096, X (ix3 (j 0) n (j 1)) * Y (ix3 (j 0) n (j 2)) :=
  dot_eq _ 4096 rfl rfl X Y _ _ (fun _ _ => eq_ix3 _) fun _ _ => eq_ix3 _

-- The left operand's columns contracted with the right operand's middle axis.
theorem dotB_eq (P : FVec Ideal S4x2048x2048 .f32) :
    Host.dotGeneral (F := Ideal) dot_S4x4096x2048_S4x2048x2048_S4x4096x2048_2_1_1_2_0_0 none X P
      = fun j => ∑ q : Fin 2048, X (ix3 (j 0) (j 1) q) * P (ix3 (j 0) q (j 2)) :=
  dot_eq _ 2048 rfl rfl X P _ _ (fun _ _ => eq_ix3 _) fun _ _ => eq_ix3 _

theorem cN_eq : (cN : EReal) = ((4096 : ℝ) : EReal) := by
  simp [Ideal.ofBits, Ideal.ieee, -EReal.coe_mul]; norm_num

theorem cNegInf_eq : (cNegInf : EReal) = ⊥ := by
  simp [Ideal.ofBits, Ideal.ieee]

-- The variance's divisor is 4096 minus one.
theorem st_n1_eq : st_n1 = fun _ => cN - 1 := by
  funext i
  show cN - (((1#32 : BitVec 32).toInt : ℝ) : EReal) = cN - 1
  rw [show (1#32 : BitVec 32).toInt = 1 by decide, Int.cast_one, EReal.coe_one]

-- The divisor is positive.
theorem n1_pos : cmpf (F := Ideal) .ogt st_n1 k0 = fun _ => 1#1 := by
  rw [st_n1_eq]; funext i
  show Ideal.cmp .ogt (cN - 1) (Ideal.ofBits .f32 0x00000000#32) = 1#1
  rw [Ideal.ofBits_zero_f32, cN_eq]
  have h : (0 : EReal) < ((4096 : ℝ) : EReal) - 1 := by
    rw [← EReal.coe_one, ← EReal.coe_sub, EReal.coe_pos]; norm_num
  simp [Ideal.cmp, h]

-- The column mean.
theorem st_v4_eq : st_v4 Y = fun j => rMu Y (j 0) (j 2) := by
  unfold st_v4; rw [sum_mid]; rfl

-- The deviation plus the constant: the divisor being positive, the variance's select takes the quotient.
theorem st_v7_eq : st_v7 Y = fun j => rS Y (j 0) (j 2) := by
  unfold st_v7 st_var st_c5; rw [n1_pos, st_n1_eq, st_v4_eq, sum_mid]; rfl

-- Minus the clipped distance.
theorem st_v27_eq : st_v27 X Y = fun j => rL2 X Y (j 0) (j 1) (j 2) := by
  unfold st_v27 st_v24 st_v13 st_v15 st_v16 st_v11
  rw [st_v4_eq, st_v7_eq, dotA_eq, sum_mid, sum_mid]; rfl

-- The column maximum: the maximum with minus infinity changes nothing.
theorem st_v30_eq : st_v30 X Y = fun j => maxQ fun q => rL2 X Y (j 0) q (j 1) := by
  unfold st_v30; rw [st_v27_eq]; funext j
  rw [maximumf_apply, Host.reduce_eq_fold_single FloatOps.maximumf _ _ _ (by decide)]
  show max cNegInf _ = _
  rw [cNegInf_eq]
  exact max_bot_left _

-- The softmax weights.
theorem st_v38_eq : st_v38 X Y = rPOf X Y := by
  unfold st_v38 st_v34; rw [st_v30_eq, st_v27_eq, sum_mid]; rfl

-- The product with the weights.
theorem st_v39_eq : st_v39 X Y = fun j => mulP X (rPOf X Y) (j 0) (j 1) (j 2) := by
  unfold st_v39; rw [st_v38_eq, dotB_eq]; rfl

theorem res_v43_apply (X Y : FVec Ideal S4x4096x2048 .f32) (reg : FVec Ideal S1 .f32) (b : Fin 4) (n : Fin 4096) (m : Fin 2048) :
    res_v43 X Y reg (ix3 b n m) = rY X Y b n m := by
  unfold res_v43; rw [st_v39_eq, st_v7_eq, st_v4_eq]; rfl

theorem res_v51_apply (X Y : FVec Ideal S4x4096x2048 .f32) (reg : FVec Ideal S1 .f32) (b : Fin 4) (n : Fin 4096) (m : Fin 2048) :
    res_v51 X Y reg (ix3 b n m) = rYstd X Y b n m := by
  unfold res_v51 st_v47; rw [st_v39_eq, st_v38_eq, dotB_eq, st_v7_eq]; rfl

end Cert.ReferenceIdeal.RefRead

end
-- ==== Proof.Algebra.lean ====
import proofs.«401599_j70669391889130_3_alg».proof.Proof.Spec
import Idealize.ShloMosaic.PureOps.Ideal
import Idealize.ShloMosaic.PureOps.Ideal.Laws
import Mathlib.Data.EReal.Operations
import Mathlib.Data.EReal.Inv
import Mathlib.Algebra.BigOperators.Ring.Finset
import Mathlib.Algebra.Order.BigOperators.Group.Finset
import Mathlib.Analysis.SpecialFunctions.Pow.Real
import Mathlib.Tactic.Ring
import Mathlib.Tactic.NormNum
import Mathlib.Tactic.Positivity

noncomputable section

open scoped BigOperators

namespace Cert.Spec

open Idealize.ShloMosaic Idealize.ShloMosaic.ValueIdx

theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem c0_eq : c0 = 0 := Ideal.ofBits_zero_f32

theorem cN_eq : cN = ((4096 : ℝ) : EReal) := by
  simp [cN, Ideal.ofBits, Ideal.ieee]
  rw [← EReal.coe_mul]; norm_num

theorem cN1_eq : cN1 = ((4095 : ℝ) : EReal) := by
  simp [cN1, Ideal.ofBits, Ideal.ieee]
  rw [← EReal.coe_mul]; norm_num

theorem cN_sub_one : cN - 1 = cN1 := by
  rw [cN_eq, cN1_eq, ← EReal.coe_one, ← EReal.coe_sub]; norm_num

def epsR : ℝ := 8589935 * ((2 : ℝ) ^ 33)⁻¹

theorem cEps_eq : cEps = (epsR : EReal) := by
  simp [cEps, epsR, Ideal.ofBits, Ideal.ieee]

theorem epsR_pos : 0 < epsR := by unfold epsR; positivity

section RealSums
variable {ι : Type*}

theorem sum_centred_sq (s : Finset ι) (g : ι → ℝ) (N mu : ℝ) (hcard : (s.card : ℝ) = N)
    (hmu : ∑ i ∈ s, g i = N * mu) :
    ∑ i ∈ s, (g i - mu) * (g i - mu) = ∑ i ∈ s, g i * g i - N * mu * mu := by
  have h1 : ∀ i, (g i - mu) * (g i - mu) = g i * g i - 2 * mu * g i + mu * mu := fun i => by ring
  simp only [h1, Finset.sum_add_distrib, Finset.sum_sub_distrib, ← Finset.mul_sum, Finset.sum_const,
    nsmul_eq_mul, hcard, hmu]
  ring

theorem sum_scaled_sq (s : Finset ι) (g : ι → ℝ) (mu r : ℝ) :
    ∑ i ∈ s, ((g i - mu) * r) * ((g i - mu) * r) = (∑ i ∈ s, (g i - mu) * (g i - mu)) * (r * r) := by
  rw [Finset.sum_mul]; exact Finset.sum_congr rfl fun i _ => by ring

theorem sum_cross (s : Finset ι) (f g : ι → ℝ) (mu r : ℝ) :
    ∑ i ∈ s, f i * ((g i - mu) * r) = (∑ i ∈ s, f i * g i - mu * ∑ i ∈ s, f i) * r := by
  rw [Finset.mul_sum, ← Finset.sum_sub_distrib, Finset.sum_mul]
  exact Finset.sum_congr rfl fun i _ => by ring

end RealSums

section Column
variable (g : Fin 4096 → ℝ)

def muR : ℝ := (∑ n, g n) * (1 / 4096)
def numR : ℝ := ∑ n, (g n - muR g) * (g n - muR g)
def sR : ℝ := Real.sqrt (numR g * (1 / 4095)) + epsR

theorem numR_nonneg : 0 ≤ numR g := Finset.sum_nonneg fun i _ => mul_self_nonneg _

theorem sR_pos : 0 < sR g := add_pos_of_nonneg_of_pos (Real.sqrt_nonneg _) epsR_pos

theorem sR_ne : sR g ≠ 0 := (sR_pos g).ne'

theorem mean_coe : Ideal.div (∑ n, (g n : EReal)) cN = (muR g : EReal) := by
  rw [cN_eq, Ideal.div_coe (by norm_num), ← coe_sum, ← EReal.coe_mul]; rfl

theorem centred_coe (mu : ℝ) :
    ∑ n, ((g n : EReal) - mu) * ((g n : EReal) - mu) = ((∑ n, (g n - mu) * (g n - mu) : ℝ) : EReal) := by
  rw [coe_sum]; exact Finset.sum_congr rfl fun n _ => by rw [EReal.coe_mul, EReal.coe_sub]

theorem num_coe :
    max c0 ((∑ n, (g n : EReal) * (g n : EReal)) - cN * (muR g : EReal) * (muR g : EReal)) = (numR g : EReal) := by
  have hsq : (∑ n, (g n : EReal) * (g n : EReal)) = ((∑ n, g n * g n : ℝ) : EReal) := by
    rw [coe_sum]; exact Finset.sum_congr rfl fun n _ => by rw [EReal.coe_mul]
  rw [hsq, c0_eq, cN_eq, ← EReal.coe_mul, ← EReal.coe_mul, ← EReal.coe_sub,
    ← sum_centred_sq Finset.univ g 4096 (muR g) (by simp) (by unfold muR; ring)]
  exact max_eq_right (EReal.coe_nonneg.2 (numR_nonneg g))

theorem dev_coe : Ideal.sqrt (Ideal.div (numR g : EReal) cN1) + cEps = (sR g : EReal) := by
  rw [cN1_eq, cEps_eq, Ideal.div_coe (by norm_num), ← EReal.coe_mul, Ideal.sqrt_coe,
    if_neg (not_lt.2 (mul_nonneg (numR_nonneg g) (by norm_num))), ← EReal.coe_add]; rfl

end Column

section Arrays

def lift (y : (⟨3, ![4, 4096, 2048]⟩ : Shape).Idx → ℝ) : Arr3 4 4096 2048 := fun i => (y i : EReal)

theorem lift_apply (y : (⟨3, ![4, 4096, 2048]⟩ : Shape).Idx → ℝ) (i : (⟨3, ![4, 4096, 2048]⟩ : Shape).Idx) :
    lift y i = (y i : EReal) := rfl

def col (y : (⟨3, ![4, 4096, 2048]⟩ : Shape).Idx → ℝ) (b : Fin 4) (m : Fin 2048) : Fin 4096 → ℝ :=
  fun n => y (ix3 b n m)

theorem exists_lift (Y : Arr3 4 4096 2048) (hY : ∀ i, Y i ≠ ⊤ ∧ Y i ≠ ⊥) : ∃ y, Y = lift y :=
  ⟨fun i => (Y i).toReal, funext fun i => (EReal.coe_toReal (hY i).1 (hY i).2).symm⟩

variable (x y : (⟨3, ![4, 4096, 2048]⟩ : Shape).Idx → ℝ)

theorem kMuOf_eq_rMu (Y : Arr3 4 4096 2048) : kMuOf Y = rMu Y := rfl

theorem kMuOf_lift (b : Fin 4) (m : Fin 2048) : kMuOf (lift y) b m = (muR (col y b m) : EReal) :=
  mean_coe (col y b m)

theorem rMu_lift (b : Fin 4) (m : Fin 2048) : rMu (lift y) b m = (muR (col y b m) : EReal) :=
  mean_coe (col y b m)

theorem kNum_lift (b : Fin 4) (m : Fin 2048) :
    kNum (colSum (lift y)) (colSumSq (lift y)) b m = (numR (col y b m) : EReal) := by
  show max c0 (colSumSq (lift y) b m - cN * kMuOf (lift y) b m * kMuOf (lift y) b m) = _
  rw [kMuOf_lift]; exact num_coe (col y b m)

theorem rNum_lift (b : Fin 4) (m : Fin 2048) :
    ∑ n : Fin 4096, (lift y (ix3 b n m) - rMu (lift y) b m) * (lift y (ix3 b n m) - rMu (lift y) b m)
      = (numR (col y b m) : EReal) := by
  rw [rMu_lift]; exact centred_coe (col y b m) (muR (col y b m))

theorem kSOf_lift (b : Fin 4) (m : Fin 2048) : kSOf (lift y) b m = (sR (col y b m) : EReal) := by
  show Ideal.sqrt (Ideal.div (kNum (colSum (lift y)) (colSumSq (lift y)) b m) cN1) + cEps = _
  rw [kNum_lift]; exact dev_coe _

theorem rS_lift (b : Fin 4) (m : Fin 2048) : rS (lift y) b m = (sR (col y b m) : EReal) := by
  show Ideal.sqrt (Ideal.div (∑ n : Fin 4096, (lift y (ix3 b n m) - rMu (lift y) b m)
    * (lift y (ix3 b n m) - rMu (lift y) b m)) (cN - 1)) + cEps = _
  rw [rNum_lift, cN_sub_one]; exact dev_coe _

theorem kSOf_eq_rS : kSOf (lift y) = rS (lift y) := by
  funext b m; rw [kSOf_lift, rS_lift]

theorem kYYOf_lift (b : Fin 4) (m : Fin 2048) :
    kYYOf (lift y) b m = ((numR (col y b m) * (1 / (sR (col y b m) * sR (col y b m))) : ℝ) : EReal) := by
  show Ideal.div (kNum (colSum (lift y)) (colSumSq (lift y)) b m) (kSOf (lift y) b m * kSOf (lift y) b m) = _
  rw [kNum_lift, kSOf_lift, ← EReal.coe_mul, Ideal.div_coe (mul_ne_zero (sR_ne _) (sR_ne _)), ← EReal.coe_mul]

theorem rYn_lift (b : Fin 4) (n : Fin 4096) (m : Fin 2048) :
    rYn (lift y) b n m = (((col y b m n - muR (col y b m)) * (1 / sR (col y b m)) : ℝ) : EReal) := by
  show Ideal.div (lift y (ix3 b n m) - rMu (lift y) b m) (rS (lift y) b m) = _
  rw [rMu_lift, rS_lift, Ideal.div_coe (sR_ne _), lift_apply, ← EReal.coe_sub, ← EReal.coe_mul]; rfl

theorem rYY_lift (b : Fin 4) (m : Fin 2048) :
    rYY (lift y) b m = ((numR (col y b m) * (1 / (sR (col y b m) * sR (col y b m))) : ℝ) : EReal) := by
  have h : ∀ n : Fin 4096, rYn (lift y) b n m * rYn (lift y) b n m
      = ((((col y b m n - muR (col y b m)) * (1 / sR (col y b m)))
          * ((col y b m n - muR (col y b m)) * (1 / sR (col y b m))) : ℝ) : EReal) := fun n => by
    rw [rYn_lift, ← EReal.coe_mul]
  show ∑ n : Fin 4096, rYn (lift y) b n m * rYn (lift y) b n m = _
  rw [Finset.sum_congr rfl (fun n _ => h n), ← coe_sum, sum_scaled_sq, one_div_mul_one_div]; rfl

theorem kXY_lift (b : Fin 4) (q m : Fin 2048) :
    Ideal.div (xyRaw (lift x) (lift y) b q m - kMuOf (lift y) b m * colSum (lift x) b q) (kSOf (lift y) b m)
      = (((∑ n, col x b q n * col y b m n - muR (col y b m) * ∑ n, col x b q n)
          * (1 / sR (col y b m)) : ℝ) : EReal) := by
  have h1 : xyRaw (lift x) (lift y) b q m = ((∑ n, col x b q n * col y b m n : ℝ) : EReal) := by
    rw [coe_sum]; exact Finset.sum_congr rfl fun n _ => by rw [EReal.coe_mul]; rfl
  have h2 : colSum (lift x) b q = ((∑ n, col x b q n : ℝ) : EReal) := by rw [coe_sum]; rfl
  rw [h1, h2, kMuOf_lift, kSOf_lift, Ideal.div_coe (sR_ne _), ← EReal.coe_mul, ← EReal.coe_sub,
    ← EReal.coe_mul]

theorem rXY_lift (b : Fin 4) (q m : Fin 2048) :
    rXY (lift x) (lift y) b q m
      = (((∑ n, col x b q n * col y b m n - muR (col y b m) * ∑ n, col x b q n)
          * (1 / sR (col y b m)) : ℝ) : EReal) := by
  have h : ∀ n : Fin 4096, lift x (ix3 b n q) * rYn (lift y) b n m
      = ((col x b q n * ((col y b m n - muR (col y b m)) * (1 / sR (col y b m))) : ℝ) : EReal) := fun n => by
    rw [rYn_lift, lift_apply, ← EReal.coe_mul]; rfl
  show ∑ n : Fin 4096, lift x (ix3 b n q) * rYn (lift y) b n m = _
  rw [Finset.sum_congr rfl (fun n _ => h n), ← coe_sum, sum_cross]

theorem kL2_eq_rL2 (b : Fin 4) (q m : Fin 2048) :
    kL2 (lift x) (lift y) (colSumSq (lift x)) (colSum (lift x)) (kMuOf (lift y)) (kSOf (lift y)) (kYYOf (lift y)) b q m
      = rL2 (lift x) (lift y) b q m := by
  show c0 - Ideal.sqrt (max c0 ((colSumSq (lift x) b q + kYYOf (lift y) b m)
      - c2 * Ideal.div (xyRaw (lift x) (lift y) b q m - kMuOf (lift y) b m * colSum (lift x) b q) (kSOf (lift y) b m)))
    = -(Ideal.sqrt (max c0 ((rXX (lift x) b q + rYY (lift y) b m) - c2 * rXY (lift x) (lift y) b q m)))
  rw [kXY_lift, rXY_lift, kYYOf_lift, rYY_lift, c0_eq, zero_sub]; rfl

theorem kPOf_eq_rPOf : kPOf (lift x) (lift y) = rPOf (lift x) (lift y) := by
  funext j
  show softmaxQ (fun q' => kL2 (lift x) (lift y) (colSumSq (lift x)) (colSum (lift x)) (kMuOf (lift y))
      (kSOf (lift y)) (kYYOf (lift y)) (j 0) q' (j 2)) (j 1)
    = softmaxQ (fun q' => rL2 (lift x) (lift y) (j 0) q' (j 2)) (j 1)
  exact congrArg (fun L => softmaxQ L (j 1)) (funext fun q' => kL2_eq_rL2 x y (j 0) q' (j 2))

end Arrays

theorem kY_eq_rY (X Y : Arr3 4 4096 2048) (hX : ∀ i, X i ≠ ⊤ ∧ X i ≠ ⊥) (hY : ∀ i, Y i ≠ ⊤ ∧ Y i ≠ ⊥) :
    ∀ (b : Fin 4) (n : Fin 4096) (m : Fin 2048), kY X Y b n m = rY X Y b n m := by
  obtain ⟨x, rfl⟩ := exists_lift X hX
  obtain ⟨y, rfl⟩ := exists_lift Y hY
  intro b n m
  show outY (lift x) (kPOf (lift x) (lift y)) (kMuOf (lift y)) (kSOf (lift y)) b n m
    = outY (lift x) (rPOf (lift x) (lift y)) (rMu (lift y)) (rS (lift y)) b n m
  rw [kPOf_eq_rPOf, kSOf_eq_rS, kMuOf_eq_rMu]

theorem kYstd_eq_rYstd (X Y : Arr3 4 4096 2048) (hX : ∀ i, X i ≠ ⊤ ∧ X i ≠ ⊥) (hY : ∀ i, Y i ≠ ⊤ ∧ Y i ≠ ⊥) :
    ∀ (b : Fin 4) (n : Fin 4096) (m : Fin 2048), kYstd X Y b n m = rYstd X Y b n m := by
  obtain ⟨x, rfl⟩ := exists_lift X hX
  obtain ⟨y, rfl⟩ := exists_lift Y hY
  intro b n m
  show outYstd (lift x) (kPOf (lift x) (lift y)) (kSOf (lift y)) b n m
    = outYstd (lift x) (rPOf (lift x) (lift y)) (rS (lift y)) b n m
  rw [kPOf_eq_rPOf, kSOf_eq_rS]

end Cert.Spec

end
-- ==== Proof.Finite.lean ====
import proofs.«401599_j70669391889130_3_alg».proof.Pre_finite_inputs
import proofs.«401599_j70669391889130_3_alg».proof.Proof.Gen.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.Finite

open Idealize.ShloMosaic

instance : Subsingleton Cert.Pre_finite_inputs.S_.Idx := ⟨fun a b => funext fun d => d.elim0⟩

theorem ofBits_inf : Ideal.ofBits .f32 0x7F800000#32 = (⊤ : EReal) := by
  simp [Ideal.ofBits, Ideal.ieee]

theorem finite_of_abs_lt (x : EReal)
    (h : Ideal.cmp .olt (max x (-x)) (Ideal.ofBits .f32 0x7F800000#32) = 1#1) : x ≠ ⊤ ∧ x ≠ ⊥ := by
  rw [ofBits_inf] at h
  have hlt : max x (-x) < ⊤ := by
    by_contra hc
    simp [Ideal.cmp, hc] at h
  constructor
  · rintro rfl
    simp at hlt
  · rintro rfl
    simp at hlt

theorem finite_of_pre (X Y : FVec Ideal Cert.Pre_finite_inputs.S4x4096x2048 .f32) (r : FVec Ideal Cert.Pre_finite_inputs.S1 .f32)
    (h : Cert.Pre_finite_inputs.fn (F := Ideal) X Y r = fun _ => 1#1) :
    (∀ i, X i ≠ ⊤ ∧ X i ≠ ⊥) ∧ (∀ i, Y i ≠ ⊤ ∧ Y i ≠ ⊥) := by
  have h0 := congrFun h ValueIdx.ix0
  dsimp only [Cert.Pre_finite_inputs.fn] at h0
  obtain ⟨h12, _⟩ := IntOp.andi_eq_one.1 h0
  obtain ⟨hA, hB⟩ := IntOp.andi_eq_one.1 h12
  refine ⟨fun i => ?_, fun i => ?_⟩
  · exact finite_of_abs_lt (X i) (Host.reduce_andi_all _ _ _ _ _ hA i)
  · exact finite_of_abs_lt (Y i) (Host.reduce_andi_all _ _ _ _ _ hB i)

end Cert.Finite

end
-- ==== Proof.lean ====
import proofs.«401599_j70669391889130_3_alg».proof.Defs
import proofs.«401599_j70669391889130_3_alg».proof.Proof.Gen.Kernel
import proofs.«401599_j70669391889130_3_alg».proof.Proof.Gen.KernelIdeal
import proofs.«401599_j70669391889130_3_alg».proof.Proof.Gen.ReferenceIdeal
import proofs.«401599_j70669391889130_3_alg».proof.Proof.Gen.Pre_finite_inputs
import proofs.«401599_j70669391889130_3_alg».proof.Proof.K.Run
import proofs.«401599_j70669391889130_3_alg».proof.Proof.KI.Run
import proofs.«401599_j70669391889130_3_alg».proof.Proof.KI.Trace
import proofs.«401599_j70669391889130_3_alg».proof.Proof.Ref.Run
import proofs.«401599_j70669391889130_3_alg».proof.Proof.Ref.Read
import proofs.«401599_j70669391889130_3_alg».proof.Proof.Algebra
import proofs.«401599_j70669391889130_3_alg».proof.Proof.Finite
import Idealize.ShloMosaic.Adequacy
import Idealize.ShloMosaic.Init

noncomputable section

namespace Cert.Proof

open Idealize.ShloMosaic Idealize.SL.Sem Idealize.ShloMosaic.ValueIdx

theorem frame_k : Cert.frame_Kernel := fun m ρ _ => Cert.Kernel.Run.frame m ρ
theorem frame_ki : Cert.frame_KernelIdeal := fun m ρ _ => Cert.KernelIdeal.Run.frame m ρ
theorem frame_ri : Cert.frame_ReferenceIdeal := fun m ρ _ => Cert.ReferenceIdeal.RefRun.frame m ρ

/-- The kernel program ends with its two results at the column-sum arrangement of the mathematics, entry by entry;
    the reference ends at the centre-and-scale arrangement; on finite entries the two are one function. -/
theorem algebraic : Cert.algebraic_KernelIdeal_ReferenceIdeal := by
  intro m g m' g' hpre hagree
  refine ⟨fun c => Cert.KernelIdeal.Run.W6 m g c (Proc.devRef .tc Cert.KernelIdeal.main_v16_0),
    fun c => Cert.KernelIdeal.Run.W6 m g c (Proc.devRef .tc Cert.KernelIdeal.main_v16_1), ?_, ?_⟩
  · exact (θ_run (Cert.KernelIdeal.defs (F := Ideal)) _ _).mono (fun r h c =>
      ⟨h c _ (Cert.KernelIdeal.Run.mem_uc Cert.KernelIdeal.main_v16_0 (by decide)),
        h c _ (Cert.KernelIdeal.Run.mem_uc Cert.KernelIdeal.main_v16_1 (by decide)),
        (h c _ (Cert.KernelIdeal.Run.mem_uc Cert.KernelIdeal.main_arg0 (by decide))).trans (Cert.KernelIdeal.Run.W6_main_arg0 m g c),
        (h c _ (Cert.KernelIdeal.Run.mem_uc Cert.KernelIdeal.main_arg1 (by decide))).trans (Cert.KernelIdeal.Run.W6_main_arg1 m g c),
        (h c _ (Cert.KernelIdeal.Run.mem_uc Cert.KernelIdeal.main_arg2 (by decide))).trans (Cert.KernelIdeal.Run.W6_main_arg2 m g c)⟩)
      (Cert.KernelIdeal.Run.run_all m g)
  · refine (θ_run (Cert.ReferenceIdeal.defs (F := Ideal)) _ _).mono (fun r h c => ?_) (Cert.ReferenceIdeal.RefRun.run m' g')
    obtain ⟨h43, h51, ha0, ha1, ha2⟩ := h c
    obtain ⟨hX, hY⟩ := Cert.Finite.finite_of_pre _ _ _ (hpre c)
    refine ⟨h43.trans (funext fun j => ?_), h51.trans (funext fun j => ?_), ha0, ha1, ha2⟩
    · obtain ⟨b, n, mm, rfl⟩ : ∃ (b : Fin 4) (n : Fin 4096) (mm : Fin 2048), j = ix3 b n mm := ⟨j 0, j 1, j 2, eq_ix3 j⟩
      rw [Cert.ReferenceIdeal.RefRead.res_v43_apply, (hagree c).1, (hagree c).2.1, ← Cert.Spec.kY_eq_rY _ _ hX hY]
      exact (Cert.KernelIdeal.Trace.out0_apply m g c b n mm).symm
    · obtain ⟨b, n, mm, rfl⟩ : ∃ (b : Fin 4) (n : Fin 4096) (mm : Fin 2048), j = ix3 b n mm := ⟨j 0, j 1, j 2, eq_ix3 j⟩
      rw [Cert.ReferenceIdeal.RefRead.res_v51_apply, (hagree c).1, (hagree c).2.1, ← Cert.Spec.kYstd_eq_rYstd _ _ hX hY]
      exact (Cert.KernelIdeal.Trace.out1_apply m g c b n mm).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
